-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S384x64 : Shape := ⟨2, ![384, 64]⟩
abbrev S64 : Shape := ⟨1, ![64]⟩
abbrev S192x64 : Shape := ⟨2, ![192, 64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S64 .f32) (main_arg5 : FVec F S192x64 .f32) (main_arg6 : FVec F S64 .f32) (main_arg7 : FVec F S64x1 .f32) (main_arg8 : FVec F S1 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg5
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S384x64 .f32) (main_arg2 : FVec F S64 .f32) (main_arg3 : FVec F S192x64 .f32) (main_arg4 : FVec F S64 .f32) (main_arg5 : FVec F S192x64 .f32) (main_arg6 : FVec F S64 .f32) (main_arg7 : FVec F S64x1 .f32) (main_arg8 : FVec F S1 .f32) (main_arg9 : IVec S1600000 32) (main_arg10 : IVec S1600000 32) (main_arg11 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S384x64 .f32 := Host.absf main_arg1
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S384x64 : Shape := ⟨2, ![384, 64]⟩
abbrev S64 : Shape := ⟨1, ![64]⟩
abbrev S192x64 : Shape := ⟨2, ![192, 64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S64x64 : Shape := ⟨2, ![64, 64]⟩
abbrev S5000x1 : Shape := ⟨2, ![5000, 1]⟩
abbrev S1x1 : Shape := ⟨2, ![1, 1]⟩

abbrev nBuf : Space → Nat
  | .hbm => 178
  | .vmem => 42
  | .smem => 0
  | _ => 0

abbrev hbmTy0_0 (i : Nat) : BufTy := match i % 128 with
  | 0 => ⟨S100000x128, .f32⟩
  | 1 => ⟨S384x64, .f32⟩
  | 2 => ⟨S64, .f32⟩
  | 3 => ⟨S192x64, .f32⟩
  | 4 => ⟨S64, .f32⟩
  | 5 => ⟨S192x64, .f32⟩
  | 6 => ⟨S64, .f32⟩
  | 7 => ⟨S64x1, .f32⟩
  | 8 => ⟨S1, .f32⟩
  | 9 => ⟨S1600000, .i32⟩
  | 10 => ⟨S1600000, .i32⟩
  | 11 => ⟨S100000, .i32⟩
  | 12 => ⟨S100000x128, .i1⟩
  | 13 => ⟨S_, .f32⟩
  | 14 => ⟨S100000x128, .f32⟩
  | 15 => ⟨S100000x128, .f32⟩
  | 16 => ⟨S_, .f32⟩
  | 17 => ⟨S100000x128, .f32⟩
  | 18 => ⟨S100000x128, .i1⟩
  | 19 => ⟨S_, .f32⟩
  | 20 => ⟨S100000x128, .f32⟩
  | 21 => ⟨S100000x128, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S128x64, .f32⟩
  | 77 => ⟨S128x64, .f32⟩
  | 78 => ⟨S128x64, .f32⟩
  | 79 => ⟨S1x64, .f32⟩
  | 80 => ⟨S100000x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S100000x64, .f32⟩
  | 98 => ⟨S100000x64, .f32⟩
  | 99 => ⟨S100000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x64, .f32⟩
  | 114 => ⟨S100000x64, .f32⟩
  | 115 => ⟨S64x64, .f32⟩
  | 116 => ⟨S64x64, .f32⟩
  | 117 => ⟨S64x64, .f32⟩
  | 118 => ⟨S1x64, .f32⟩
  | 119 => ⟨S100000x64, .f32⟩
  | 120 => ⟨S100000x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S100000x64, .f32⟩
  | 8 => ⟨S100000x64, .f32⟩
  | 9 => ⟨S100000x64, .f32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S100000x64, .f32⟩
  | 25 => ⟨S100000x64, .f32⟩
  | 26 => ⟨S64x64, .f32⟩
  | 27 => ⟨S64x64, .f32⟩
  | 28 => ⟨S64x64, .f32⟩
  | 29 => ⟨S1x64, .f32⟩
  | 30 => ⟨S100000x64, .f32⟩
  | 31 => ⟨S100000x1, .i32⟩
  | 32 => ⟨S64x64, .f32⟩
  | 33 => ⟨S_, .f32⟩
  | 34 => ⟨S100000, .f32⟩
  | 35 => ⟨S_, .f32⟩
  | 36 => ⟨S64, .f32⟩
  | 37 => ⟨S100000x1, .i32⟩
  | 38 => ⟨S64, .f32⟩
  | 39 => ⟨S_, .f32⟩
  | 40 => ⟨S_, .f32⟩
  | 41 => ⟨S64, .f32⟩
  | 42 => ⟨S64, .f32⟩
  | 43 => ⟨S64x1, .f32⟩
  | 44 => ⟨S64x64, .f32⟩
  | 45 => ⟨S64x64, .f32⟩
  | 46 => ⟨S64x1, .f32⟩
  | 47 => ⟨S1x1, .f32⟩
  | 48 => ⟨S64x1, .f32⟩
  | 49 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x1, .i32⟩
  | .local _ .vmem, ⟨39, _⟩ => ⟨S5000x1, .i32⟩
  | .local _ .vmem, ⟨40, _⟩ => ⟨S64x64, .f32⟩
  | .local _ .vmem, ⟨41, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_cst_1 : Ref sig .tc := ⟨.hbm, 19, rfl⟩
abbrev main_call0_call1_v0 : Ref sig .tc := ⟨.hbm, 20, rfl⟩
abbrev main_call0_v4 : Ref sig .tc := ⟨.hbm, 21, rfl⟩
abbrev main_call0_cst_2 : Ref sig .tc := ⟨.hbm, 22, rfl⟩
abbrev main_call0_v5 : Ref sig .tc := ⟨.hbm, 23, rfl⟩
abbrev main_call0_v6 : Ref sig .tc := ⟨.hbm, 24, rfl⟩
abbrev main_call0_cst_3 : Ref sig .tc := ⟨.hbm, 25, rfl⟩
abbrev main_call0_call2_v0 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v5 : Ref sig .tc := ⟨.hbm, 37, rfl⟩
abbrev main_cst_2 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_c : Ref sig .tc := ⟨.hbm, 44, rfl⟩
abbrev main_v11 : Ref sig .tc := ⟨.hbm, 45, rfl⟩
abbrev main_v12 : Ref sig .tc := ⟨.hbm, 46, rfl⟩
abbrev main_c_3 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_4 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_8 : Ref sig .tc := ⟨.hbm, 83, rfl⟩
abbrev main_v44 : Ref sig .tc := ⟨.hbm, 84, rfl⟩
abbrev main_v45 : Ref sig .tc := ⟨.hbm, 85, rfl⟩
abbrev main_c_9 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_11 : Ref sig .tc := ⟨.hbm, 100, rfl⟩
abbrev main_v58 : Ref sig .tc := ⟨.hbm, 101, rfl⟩
abbrev main_v59 : Ref sig .tc := ⟨.hbm, 102, rfl⟩
abbrev main_c_12 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_13 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_14 : Ref sig .tc := ⟨.hbm, 122, rfl⟩
abbrev main_v77 : Ref sig .tc := ⟨.hbm, 123, rfl⟩
abbrev main_v78 : Ref sig .tc := ⟨.hbm, 124, rfl⟩
abbrev main_c_15 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_16 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_17 : Ref sig .tc := ⟨.hbm, 139, rfl⟩
abbrev main_v91 : Ref sig .tc := ⟨.hbm, 140, rfl⟩
abbrev main_v92 : Ref sig .tc := ⟨.hbm, 141, rfl⟩
abbrev main_c_18 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_19 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_20 : Ref sig .tc := ⟨.hbm, 161, rfl⟩
abbrev main_v110 : Ref sig .tc := ⟨.hbm, 162, rfl⟩
abbrev main_cst_21 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_22 : Ref sig .tc := ⟨.hbm, 167, rfl⟩
abbrev main_call2_v0 : Ref sig .tc := ⟨.hbm, 168, rfl⟩
abbrev main_call2_v1 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v18 : BitVec 1 := Scalar.cmpi .eq arg0 c19_i32
  let v19 : BitVec 32 := Scalar.extui v18
  let c0_i32_8 : BitVec 32 := 0#32
  let v20 : BitVec 1 := Scalar.cmpi .ne v19 c0_i32_8
  v20

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S384x64_S128x64_0_0 : S384x64.Slices ![0, 0] S128x64
  slices_S384x64_S128x64_128_0 : S384x64.Slices ![128, 0] S128x64
  slices_S384x64_S128x64_256_0 : S384x64.Slices ![256, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v70) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v102) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v103) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v104) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v105) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v106) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v107) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v107) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v108) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v109) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S384x64 : Shape := ⟨2, ![384, 64]⟩
abbrev S64 : Shape := ⟨1, ![64]⟩
abbrev S192x64 : Shape := ⟨2, ![192, 64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S100000x64 : Shape := ⟨2, ![100000, 64]⟩
abbrev S1x64 : Shape := ⟨2, ![1, 64]⟩
abbrev S1600000x64 : Shape := ⟨2, ![1600000, 64]⟩
abbrev S100000x192 : Shape := ⟨2, ![100000, 192]⟩
abbrev S64x64 : Shape := ⟨2, ![64, 64]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S384x64, .f32⟩
  | 2 => ⟨S64, .f32⟩
  | 3 => ⟨S192x64, .f32⟩
  | 4 => ⟨S64, .f32⟩
  | 5 => ⟨S192x64, .f32⟩
  | 6 => ⟨S64, .f32⟩
  | 7 => ⟨S64x1, .f32⟩
  | 8 => ⟨S1, .f32⟩
  | 9 => ⟨S1600000, .i32⟩
  | 10 => ⟨S1600000, .i32⟩
  | 11 => ⟨S100000, .i32⟩
  | 12 => ⟨S100000x128, .i1⟩
  | 13 => ⟨S_, .f32⟩
  | 14 => ⟨S100000x128, .f32⟩
  | 15 => ⟨S100000x128, .f32⟩
  | 16 => ⟨S_, .f32⟩
  | 17 => ⟨S100000x128, .f32⟩
  | 18 => ⟨S100000x128, .i1⟩
  | 19 => ⟨S_, .f32⟩
  | 20 => ⟨S100000x128, .f32⟩
  | 21 => ⟨S100000x128, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S100000x384, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S100000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000x64, .f32⟩
  | 117 => ⟨S100000x64, .f32⟩
  | 118 => ⟨S100000x192, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S100000x64, .f32⟩
  | 14 => ⟨S100000x64, .f32⟩
  | 15 => ⟨S100000x64, .f32⟩
  | 16 => ⟨S100000x64, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S100000x64, .f32⟩
  | 32 => ⟨S100000x192, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S64x64, .f32⟩
  | 42 => ⟨S100000x1, .i32⟩
  | 43 => ⟨S64x64, .f32⟩
  | 44 => ⟨S_, .f32⟩
  | 45 => ⟨S100000, .f32⟩
  | 46 => ⟨S_, .f32⟩
  | 47 => ⟨S64, .f32⟩
  | 48 => ⟨S100000x1, .i32⟩
  | 49 => ⟨S64, .f32⟩
  | 50 => ⟨S_, .f32⟩
  | 51 => ⟨S_, .f32⟩
  | 52 => ⟨S64, .f32⟩
  | 53 => ⟨S64, .f32⟩
  | 54 => ⟨S64x1, .f32⟩
  | 55 => ⟨S64x64, .f32⟩
  | 56 => ⟨S64x64, .f32⟩
  | 57 => ⟨S64x1, .f32⟩
  | 58 => ⟨S1x1, .f32⟩
  | 59 => ⟨S64x1, .f32⟩
  | 60 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_cst_1 : Ref sig .tc := ⟨.hbm, 19, rfl⟩
abbrev main_call0_call1_v0 : Ref sig .tc := ⟨.hbm, 20, rfl⟩
abbrev main_call0_v4 : Ref sig .tc := ⟨.hbm, 21, rfl⟩
abbrev main_call0_cst_2 : Ref sig .tc := ⟨.hbm, 22, rfl⟩
abbrev main_call0_v5 : Ref sig .tc := ⟨.hbm, 23, rfl⟩
abbrev main_call0_v6 : Ref sig .tc := ⟨.hbm, 24, rfl⟩
abbrev main_call0_cst_3 : Ref sig .tc := ⟨.hbm, 25, rfl⟩
abbrev main_call0_call2_v0 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v5 : Ref sig .tc := ⟨.hbm, 37, rfl⟩
abbrev main_cst_2 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_c : Ref sig .tc := ⟨.hbm, 44, rfl⟩
abbrev main_v11 : Ref sig .tc := ⟨.hbm, 45, rfl⟩
abbrev main_v12 : Ref sig .tc := ⟨.hbm, 46, rfl⟩
abbrev main_c_3 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_4 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call2_cst : Ref sig .tc := ⟨.hbm, 81, rfl⟩
abbrev main_call2_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_8 : Ref sig .tc := ⟨.hbm, 86, rfl⟩
abbrev main_v45 : Ref sig .tc := ⟨.hbm, 87, rfl⟩
abbrev main_v46 : Ref sig .tc := ⟨.hbm, 88, rfl⟩
abbrev main_c_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_10 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_11 : Ref sig .tc := ⟨.hbm, 103, rfl⟩
abbrev main_v59 : Ref sig .tc := ⟨.hbm, 104, rfl⟩
abbrev main_v60 : Ref sig .tc := ⟨.hbm, 105, rfl⟩
abbrev main_c_12 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_13 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call3_cst : Ref sig .tc := ⟨.hbm, 123, rfl⟩
abbrev main_call3_v0 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_c_14 : Ref sig .tc := ⟨.hbm, 128, rfl⟩
abbrev main_v79 : Ref sig .tc := ⟨.hbm, 129, rfl⟩
abbrev main_v80 : Ref sig .tc := ⟨.hbm, 130, rfl⟩
abbrev main_c_15 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_16 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_17 : Ref sig .tc := ⟨.hbm, 145, rfl⟩
abbrev main_v93 : Ref sig .tc := ⟨.hbm, 146, rfl⟩
abbrev main_v94 : Ref sig .tc := ⟨.hbm, 147, rfl⟩
abbrev main_c_18 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_19 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_call4_cst : Ref sig .tc := ⟨.hbm, 165, rfl⟩
abbrev main_call4_v0 : Ref sig .tc := ⟨.hbm, 166, rfl⟩
abbrev main_v110 : Ref sig .tc := ⟨.hbm, 167, rfl⟩
abbrev main_cst_20 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_21 : Ref sig .tc := ⟨.hbm, 172, rfl⟩
abbrev main_v114 : Ref sig .tc := ⟨.hbm, 173, rfl⟩
abbrev main_cst_22 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_cst_23 : Ref sig .tc := ⟨.hbm, 178, rfl⟩
abbrev main_call5_v0 : Ref sig .tc := ⟨.hbm, 179, rfl⟩
abbrev main_call5_v1 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x64_S100000x64_1_0_0_1_n_n_wf : DotDims.WF S100000x384 S384x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x192_S192x64_S100000x64_1_0_0_1_n_n_wf : DotDims.WF S100000x192 S192x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.K.Comb0.lean ====
import proofs.«408660_j24927990186433_1_alg».proof.Proof.Gen.Kernel.Launch
import proofs.«408660_j24927990186433_1_alg».proof.Proof.Gen.Kernel.Skeleton
import proofs.«408660_j24927990186433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_w : Rect S128x64 := Rect.unit (s := S128x64) ![0, 0] S128x64.size inb_S128x64_S128x64_0_0
abbrev r0_b : Rect S1x64 := Rect.unit (s := S1x64) ![0, 0] S1x64.size inb_S1x64_S1x64_0_0
abbrev r0_o : Rect S5000x64 := Rect.unit (s := S5000x64) ![0, 0] S5000x64.size inb_S5000x64_S5000x64_0_0

/-- What the one store leaves in the output buffer, over the seven loaded blocks. -/
def out0_7 (x0 x1 x2 : Vec F S5000x128 .f32) (w0 w1 w2 : Vec F S128x64 .f32) (b : Vec F S1x64 .f32) : Vec F S5000x64 .f32 :=
  View.canon [⟨r0_o, k0_pay1 (View.ld x0 r0_a) (View.ld x1 r0_a) (View.ld x2 r0_a) (View.ld w0 r0_w) (View.ld w1 r0_w) (View.ld w2 r0_w) (View.ld b r0_b)⟩]

theorem off0 : (![0, 0] : Fin 2 → ℕ) = fun _ => 0 := by funext a; fin_cases a <;> rfl

/-- Every access spans its whole buffer, so this is relu (x0·w0 + x1·w1 + x2·w2 + b) of the blocks themselves. -/
theorem out0_7_eq (x0 x1 x2 : Vec F S5000x128 .f32) (w0 w1 w2 : Vec F S128x64 .f32) (b : Vec F S1x64 .f32) :
    out0_7 x0 x1 x2 w0 w1 w2 b = k0_pay1 x0 x1 x2 w0 w1 w2 b := by
  unfold out0_7
  rw [View.canon_unit_zero (S := S5000x64) off0]
  simp only [View.ld_unit_zero (S := S5000x128) off0, View.ld_unit_zero (S := S128x64) off0, View.ld_unit_zero (S := S1x64) off0]

set_option maxHeartbeats 4000000 in
/-- The body keeps its seven inputs and ends with out0_7 of them in the output buffer. -/
theorem sound_kernel0 (c : Dev nD) (E : Set ℕ) {i : grid0.Coords} {arg0 arg1 arg2 : Memref sig .tc .vmem S5000x128 .f32} {arg3 arg4 arg5 : Memref sig .tc .vmem S128x64 .f32} {arg6 : Memref sig .tc .vmem S1x64 .f32} {arg7 : Memref sig .tc .vmem S5000x64 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole}
    (x0 x1 x2 : Vec F S5000x128 .f32) (x3 x4 x5 : Vec F S128x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => ⟨_, List.mem_singleton_self _, View.mem_set_unit_zero off0 inb_S5000x64_S5000x64_0_0 y⟩

/-- After each point an input buffer holds its block and the output buffer out0_7 of the seven input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by
  dsimp only [dat0]

/-- Each input buffer holds its window's block at every point. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- At every point the buffers hold the blocks the body's triple asks for; the rest passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  iintro ⟨H0, H1, H2, H3, H4, H5, H6, H7⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Comb1.lean ====
import proofs.«408660_j24927990186433_1_alg».proof.Proof.Gen.Kernel.Launch
import proofs.«408660_j24927990186433_1_alg».proof.Proof.Gen.Kernel.Skeleton
import proofs.«408660_j24927990186433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S5000x64 := Rect.unit (s := S5000x64) ![0, 0] S5000x64.size inb_S5000x64_S5000x64_0_0

/-- What the one store leaves in the output buffer, over the seven loaded blocks. -/
def out1_7 (x0 x1 x2 : Vec F S5000x64 .f32) (w0 w1 w2 : Vec F S64x64 .f32) (b : Vec F S1x64 .f32) : Vec F S5000x64 .f32 :=
  View.canon [⟨r1_o, k1_pay1 (View.ld x0 r1_a) (View.ld x1 r1_a) (View.ld x2 r1_a) (View.ld w0 r1_w) (View.ld w1 r1_w) (View.ld w2 r1_w) (View.ld b r1_b)⟩]

theorem off1 : (![0, 0] : Fin 2 → ℕ) = fun _ => 0 := by funext a; fin_cases a <;> rfl

/-- Every access spans its whole buffer, so this is relu (x0·w0 + x1·w1 + x2·w2 + b) of the blocks themselves. -/
theorem out1_7_eq (x0 x1 x2 : Vec F S5000x64 .f32) (w0 w1 w2 : Vec F S64x64 .f32) (b : Vec F S1x64 .f32) :
    out1_7 x0 x1 x2 w0 w1 w2 b = k1_pay1 x0 x1 x2 w0 w1 w2 b := by
  unfold out1_7
  rw [View.canon_unit_zero (S := S5000x64) off1]
  simp only [View.ld_unit_zero (S := S5000x64) off1, View.ld_unit_zero (S := S64x64) off1, View.ld_unit_zero (S := S1x64) off1]

set_option maxHeartbeats 4000000 in
/-- The body keeps its seven inputs and ends with out1_7 of them in the output buffer. -/
theorem sound_kernel1 (c : Dev nD) (E : Set ℕ) {i : grid1.Coords} {arg0 arg1 arg2 : Memref sig .tc .vmem S5000x64 .f32} {arg3 arg4 arg5 : Memref sig .tc .vmem S64x64 .f32} {arg6 : Memref sig .tc .vmem S1x64 .f32} {arg7 : Memref sig .tc .vmem S5000x64 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole}
    (x0 x1 x2 : Vec F S5000x64 .f32) (x3 x4 x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__combine_kernel i arg0 harg0 arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => ⟨_, List.mem_singleton_self _, View.mem_set_unit_zero off1 inb_S5000x64_S5000x64_0_0 y⟩

/-- After each point an input buffer holds its block and the output buffer out1_7 of the seven input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-- Each input buffer holds its window's block at every point. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- At every point the buffers hold the blocks the body's triple asks for; the rest passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro ⟨H0, H1, H2, H3, H4, H5, H6, H7⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Comb2.lean ====
import proofs.«408660_j24927990186433_1_alg».proof.Proof.Gen.Kernel.Launch
import proofs.«408660_j24927990186433_1_alg».proof.Proof.Gen.Kernel.Skeleton
import proofs.«408660_j24927990186433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S5000x64 := Rect.unit (s := S5000x64) ![0, 0] S5000x64.size inb_S5000x64_S5000x64_0_0

/-- What the one store leaves in the output buffer, over the seven loaded blocks. -/
def out2_7 (x0 x1 x2 : Vec F S5000x64 .f32) (w0 w1 w2 : Vec F S64x64 .f32) (b : Vec F S1x64 .f32) : Vec F S5000x64 .f32 :=
  View.canon [⟨r2_o, k2_pay1 (View.ld x0 r2_a) (View.ld x1 r2_a) (View.ld x2 r2_a) (View.ld w0 r2_w) (View.ld w1 r2_w) (View.ld w2 r2_w) (View.ld b r2_b)⟩]

theorem off2 : (![0, 0] : Fin 2 → ℕ) = fun _ => 0 := by funext a; fin_cases a <;> rfl

/-- Every access spans its whole buffer, so this is relu (x0·w0 + x1·w1 + x2·w2 + b) of the blocks themselves. -/
theorem out2_7_eq (x0 x1 x2 : Vec F S5000x64 .f32) (w0 w1 w2 : Vec F S64x64 .f32) (b : Vec F S1x64 .f32) :
    out2_7 x0 x1 x2 w0 w1 w2 b = k2_pay1 x0 x1 x2 w0 w1 w2 b := by
  unfold out2_7
  rw [View.canon_unit_zero (S := S5000x64) off2]
  simp only [View.ld_unit_zero (S := S5000x64) off2, View.ld_unit_zero (S := S64x64) off2, View.ld_unit_zero (S := S1x64) off2]

set_option maxHeartbeats 4000000 in
/-- The body keeps its seven inputs and ends with out2_7 of them in the output buffer. -/
theorem sound_kernel2 (c : Dev nD) (E : Set ℕ) {i : grid2.Coords} {arg0 arg1 arg2 : Memref sig .tc .vmem S5000x64 .f32} {arg3 arg4 arg5 : Memref sig .tc .vmem S64x64 .f32} {arg6 : Memref sig .tc .vmem S1x64 .f32} {arg7 : Memref sig .tc .vmem S5000x64 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole}
    (x0 x1 x2 : Vec F S5000x64 .f32) (x3 x4 x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => ⟨_, List.mem_singleton_self _, View.mem_set_unit_zero off2 inb_S5000x64_S5000x64_0_0 y⟩

/-- After each point an input buffer holds its block and the output buffer out2_7 of the seven input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by
  dsimp only [dat2]

/-- Each input buffer holds its window's block at every point. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- At every point the buffers hold the blocks the body's triple asks for; the rest passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  iintro ⟨H0, H1, H2, H3, H4, H5, H6, H7⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Pool.lean ====
import proofs.«408660_j24927990186433_1_alg».proof.Proof.Gen.Kernel.Launch
import proofs.«408660_j24927990186433_1_alg».proof.Proof.Gen.Kernel.Skeleton
import proofs.«408660_j24927990186433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off00_3 : (![0, 0] : Fin 2 → Nat) = fun _ => 0 := by funext a; fin_cases a <;> rfl

abbrev cond3_0 (i : grid3.Coords) : Prop :=
  (Scalar.cmpi .ne (Scalar.extui (Scalar.cmpi .eq (BitVec.ofNat 32 (i 0).val) 0#32)) 0#32) = 1#1
abbrev cond3_1 (i : grid3.Coords) : Prop := k3_cond2 i = 1#1

/-- The tile's product is added to zero where the first condition holds, else to `xs`; where the second holds the sum is also the output. -/
theorem sound_kernel3 (c : Dev nD) (i : grid3.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S64x64 .f32) (harg4 : arg4.IsWhole)
    (x0 : Vec F S5000x64 .f32) (x1 : Vec F S5000x1 .i32) (xo xs : Vec F S64x64 .f32) (E : Set ℕ) (K : PUnit → sProp 𝕄) :
    iprop(ownsTc c arg1 fullShare x0 ∗ ownsTc c arg2 fullShare x1 ∗ ownsTc c arg3 fullShare xo
        ∗ ownsTc c arg4 fullShare xs
        ∗ (iprop(ownsTc c arg1 fullShare x0 ∗ ownsTc c arg2 fullShare x1
            ∗ ownsTc c arg3 fullShare (if cond3_1 i then k3_pay2 x0 x1 (if cond3_0 i then k3_pay1 else xs) else xo)
            ∗ ownsTc c arg4 fullShare (k3_pay2 x0 x1 (if cond3_0 i then k3_pay1 else xs))) -∗ K ⟨⟩))
      ⊢ wp frame (wpE (defs₀ (F := F)) Variants.none c none) E (cc3__pool_kernel i arg1 harg1 arg2 harg2 arg3 harg3 arg4 harg4) K := by
  by_cases hc0 : cond3_0 i <;> by_cases hc1 : cond3_1 i <;>
  · first | rw [if_pos hc0] | rw [if_neg hc0]
    first | rw [if_pos hc1] | rw [if_neg hc1]
    simp only [cc3__pool_kernel_eq_skeleton]; unfold cc3__pool_kernel_skel ownsTc owns
    iintro ⟨⟨%f0, %hf0, H0⟩, ⟨%f1, %hf1, H1⟩, ⟨%f2, %hf2, H2⟩, ⟨%fs, %hfs, HS⟩, Hk⟩
    subst hf0 hf1 hf2 hfs
    sl_exec! (disch := first | exact hc0 | exact hc1)
    sl_step
    iapply Hk
    isplitl [H0]; swap; isplitl [H1]; swap; isplitl [H2]
    all_goals
      iexists _; isplitr; swap; · iassumption
      ipureintro
      first
        | rfl
        | (sl_unfold_run_names
           simp only [View.read_writes_junk_eq_canon, View.canon_cons_unit_zero (S := S64x64) off00_3, View.readAt_eq_ld,
             View.ld_unit_zero (S := S5000x64) off00_3, View.ld_unit_zero (S := S5000x1) off00_3,
             View.ld_unit_zero (S := S64x64) off00_3, View.readCov_cons_toLoadRect])

/-- Window `w`'s block at point `t` of the array `V` gives. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after point `n`: the tile's product added to zero at the first point, to the sum so far afterwards. -/
def acc3 (c : Dev nD) : (n : ℕ) → n < cfg3.N → Vec F S64x64 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩) (acc3 c n (Nat.lt_of_succ_lt hn))

theorem acc3_zero (c : Dev nD) (hn : 0 < cfg3.N) :
    acc3 V c 0 hn = k3_pay2 (iblk3 V c 0 ⟨0, hn⟩) (iblk3 V c 1 ⟨0, hn⟩) k3_pay1 := rfl

theorem acc3_succ (c : Dev nD) (n : ℕ) (hn : n + 1 < cfg3.N) :
    acc3 V c (n + 1) hn = k3_pay2 (iblk3 V c 0 ⟨n + 1, hn⟩) (iblk3 V c 1 ⟨n + 1, hn⟩) (acc3 V c n (Nat.lt_of_succ_lt hn)) := rfl

theorem hcond3_0 : ∀ t : Fin cfg3.N, cond3_0 (grid3.coords t) ↔ t.val = 0 := by decide +kernel

/-- One step of the accumulator, from contents `a` that are the sum so far at every point but the first. -/
theorem acc3_step (c : Dev nD) (t : Fin cfg3.N) (a : Vec F S64x64 .f32)
    (ha : ∀ h : t.val ≠ 0, a = acc3 V c (t.val - 1) (by omega)) :
    k3_pay2 (iblk3 V c 0 t) (iblk3 V c 1 t) (if cond3_0 (grid3.coords t) then k3_pay1 else a) = acc3 V c t.val t.isLt := by
  obtain ⟨n, hn⟩ := t
  cases n with
  | zero => rw [if_pos ((hcond3_0 _).mpr rfl)]; rfl
  | succ n => rw [if_neg (mt (hcond3_0 _).mp (Nat.succ_ne_zero n)), ha (Nat.succ_ne_zero n)]; rfl

abbrev scM3 : Memref sig .tc .vmem S64x64 .f32 := Memref.whole cc3_scratch0

/-- Before position `t` the scratch holds the sum so far (anything before the first point). -/
def Phi3 (c : Dev nD) (t : Fin (cfg3.N + 1)) : sProp 𝕄 :=
  iprop(iprop((∃ a, ⌜∀ h : t.val ≠ 0, a = acc3 V c (t.val - 1) (by omega)⌝ ∗ ownsTc c scM3 fullShare a)
    ∗ Pipeline.scopedRestBut (Ix := Unit) (Name := ℕ) (U := UR sig nD τ) (Lvl := ℕ) (Val := Elt F) spec3 c [cc3_scratch0])
    ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ := Phi3 V c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = acc3 V c t.val t.isLt := by dsimp only [dat3]

theorem Phi3_A (c : Dev nD) (t : Fin (cfg3.N + 1)) :
    (Phi3 V c t ⊢ Pipeline.ΦA spec3 c) ∧ (t.val = 0 → Pipeline.ΦA spec3 c ⊢ Phi3 V c t) := by
  unfold Pipeline.ΦA Phi3; rw [scopedRest3_split]; simp only [scM3, owns_whole]
  refine ⟨?_, fun h0 => ?_⟩
  · iintro ⟨⟨⟨%a, -, HS⟩, HR⟩, Hg⟩; iframe HR Hg; iexists a; iexact HS
  · iintro ⟨⟨⟨%a, HS⟩, HR⟩, Hg⟩; iframe HR Hg; iexists a; iframe HS; ipureintro; exact fun h => absurd h0 h

theorem hin3 (c : Dev nD) : Pipeline.ΦA spec3 c ⊢ (dat3 V c).Φ 0 := (Phi3_A V c 0).2 rfl

theorem hout3 (c : Dev nD) : (dat3 V c).Φ (Fin.last cfg3.N) ⊢ Pipeline.ΦA spec3 c := (Phi3_A V c _).1

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

abbrev ms3_0 (t : Fin cfg3.N) : Memref sig .tc .vmem S5000x64 .f32 := win3_0.stage (cfg3.slots t 0)
abbrev ms3_1 (t : Fin cfg3.N) : Memref sig .tc .vmem S5000x1 .i32 := win3_1.stage (cfg3.slots t 1)
abbrev ms3_2 (t : Fin cfg3.N) : Memref sig .tc .vmem S64x64 .f32 := win3_2.stage (cfg3.slots t 2)

theorem out3_2 : ∀ t : Fin cfg3.N, (¬cond3_1 (grid3.coords t) ∧ cfg3.idle 2 (grid3.coords t) = true ∧ (cfg3.win 2).flush t = false)
    ∨ (cond3_1 (grid3.coords t) ∧ cfg3.idle 2 (grid3.coords t) = false) := by decide +kernel

theorem leaves3_2 (c : Dev nD) (t : Fin cfg3.N) (d) :
    ownsTc c (ms3_2 t) fullShare (if cond3_1 (grid3.coords t) then acc3 V c t.val t.isLt else (dat3 V c).before 2 t d)
      ⊢ (dat3 V c).leavesExact 2 t := by
  rcases out3_2 t with ⟨h, hi, hf⟩ | ⟨h, hi⟩
  · rw [if_neg h, Dat.leavesExact_idle _ 2 t hi hf]; iintro H; iexists d; iexact H
  · rw [if_pos h]; unfold Dat.leavesExact; rw [hi, after3_2]

/-- At every point the body takes the scratch from the sum so far to the sum one step on. -/
theorem body_obligation3 (c : Dev nD) : BodyObligation (dat3 (F := F) V c) (defs₀ (F := F)) Variants.none () Set.univ := fun t => by
  rw [bigSep_W3, bigSep_W3]
  show iprop(Phi3 V c t.castSucc ∗ _ ∗ (∃ d, ownsTc c (ms3_0 t) _ _) ∗ (∃ d, ownsTc c (ms3_1 t) _ _) ∗ (∃ d, ownsTc c (ms3_2 t) _ _))
    ⊢ wp _ _ _ (bodyAt3 t) fun _ => iprop(Phi3 V c t.succ ∗ (dat3 V c).owesAt () t.castSucc
      ∗ ownsTc c (ms3_0 t) _ (iblk3 V c 0 t) ∗ ownsTc c (ms3_1 t) _ (iblk3 V c 1 t) ∗ (dat3 V c).leavesExact 2 t)
  simp only [before3_0, before3_1]; unfold Phi3
  iintro ⟨⟨⟨⟨%a, %ha, HS⟩, HR⟩, Hg⟩, Ho, ⟨%d0, H0⟩, ⟨%d1, H1⟩, ⟨%d2, H2⟩⟩
  iapply (sound_kernel3 (xs := a))
  iframe H0 H1 H2 HS
  iintro ⟨H0, H1, H2, HS⟩
  iframe HR Hg Ho H0 H1
  isplitl [HS]
  · iexists _; iframe HS; ipureintro; exact fun _ => acc3_step V c t a ha
  rw [acc3_step V c t a ha]
  iapply (leaves3_2 V c t d2); iexact H2

end Cert.Kernel.Hand

end
-- ==== Proof.K.Segs.lean ====
import proofs.«408660_j24927990186433_1_alg».proof.Proof.Gen.Kernel.Launch
import proofs.«408660_j24927990186433_1_alg».proof.Proof.Gen.Kernel.Skeleton
import proofs.«408660_j24927990186433_1_alg».proof.Proof.Gen.Kernel.Points
import proofs.«408660_j24927990186433_1_alg».proof.Proof.Gen.Kernel.Regions
import proofs.«408660_j24927990186433_1_alg».proof.Proof.K.Comb0
import proofs.«408660_j24927990186433_1_alg».proof.Proof.K.Comb1
import proofs.«408660_j24927990186433_1_alg».proof.Proof.K.Comb2
import proofs.«408660_j24927990186433_1_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def X5 (c : Dev nD) : Valuation τ sig (Elt F) :=
  Function.update (V4 m c) main_v41 ((dat0 (fun c b => V4 m c b) c).arrAt 7 cfg0.N)
def X6 (c : Dev nD) : Valuation τ sig (Elt F) := StableHlo.after hostOps1 (X5 m c)
def X7 (c : Dev nD) : Valuation τ sig (Elt F) :=
  Function.update (X6 m c) main_v74 ((dat1 (fun c b => X6 m c b) c).arrAt 7 cfg1.N)
def X8 (c : Dev nD) : Valuation τ sig (Elt F) := StableHlo.after hostOps2 (X7 m c)
def X9 (c : Dev nD) : Valuation τ sig (Elt F) :=
  Function.update (X8 m c) main_v107 ((dat2 (fun c b => X8 m c b) c).arrAt 7 cfg2.N)
def X10 (c : Dev nD) : Valuation τ sig (Elt F) := StableHlo.after hostOps3 (X9 m c)
def X11 (c : Dev nD) : Valuation τ sig (Elt F) :=
  Function.update (X10 m c) main_v109 ((dat3 (fun c b => X10 m c b) c).arrAt 2 cfg3.N)

/-- What the regions leave, in stages: each region's entry contents read the earlier regions' outputs. -/
def outs : Gen.Outs (F := F) := fun J r c =>
  if J = 5 then X5 m c r else if J = 7 then X7 m c r else if J = 9 then X9 m c r else if J = 11 then X11 m c r
  else V0 m c r

theorem outs5 (c : Dev nD) : outs m 5 main_v41 c = (dat0 (fun c b => Gen.V4 m c b) c).arrAt 7 cfg0.N := by
  unfold outs X5; rw [if_pos rfl, Function.update_self]
theorem V6_eq (c : Dev nD) : V6 m (outs m) c = X6 m c :=
  congrArg (fun a => StableHlo.after hostOps1 (Function.update (V4 m c) main_v41 a)) (outs5 m c)
theorem o7 (c : Dev nD) : outs m 7 main_v74 c = (dat1 (fun c b => X6 m c b) c).arrAt 7 cfg1.N := by
  unfold outs X7; rw [if_neg (by decide), if_pos rfl, Function.update_self]
theorem outs7 (c : Dev nD) : outs m 7 main_v74 c = (dat1 (fun c b => Gen.V6 m (outs m) c b) c).arrAt 7 cfg1.N :=
  (o7 m c).trans (congrArg (fun V => (dat1 V c).arrAt 7 cfg1.N) (funext fun c => funext fun b => (congrFun (V6_eq m c) b).symm))
theorem V8_eq (c : Dev nD) : V8 m (outs m) c = X8 m c :=
  congrArg₂ (fun (V : Valuation τ sig (Elt F)) a => StableHlo.after hostOps2 (Function.update V main_v74 a)) (V6_eq m c) (o7 m c)
theorem o9 (c : Dev nD) : outs m 9 main_v107 c = (dat2 (fun c b => X8 m c b) c).arrAt 7 cfg2.N := by
  unfold outs X9; rw [if_neg (by decide), if_neg (by decide), if_pos rfl, Function.update_self]
theorem outs9 (c : Dev nD) : outs m 9 main_v107 c = (dat2 (fun c b => Gen.V8 m (outs m) c b) c).arrAt 7 cfg2.N :=
  (o9 m c).trans (congrArg (fun V => (dat2 V c).arrAt 7 cfg2.N) (funext fun c => funext fun b => (congrFun (V8_eq m c) b).symm))
theorem V10_eq (c : Dev nD) : V10 m (outs m) c = X10 m c :=
  congrArg₂ (fun (V : Valuation τ sig (Elt F)) a => StableHlo.after hostOps3 (Function.update V main_v107 a)) (V8_eq m c) (o9 m c)
theorem o11 (c : Dev nD) : outs m 11 main_v109 c = (dat3 (fun c b => X10 m c b) c).arrAt 2 cfg3.N := by
  unfold outs X11; rw [if_neg (by decide), if_neg (by decide), if_neg (by decide), if_pos rfl, Function.update_self]
theorem outs11 (c : Dev nD) : outs m 11 main_v109 c = (dat3 (fun c b => Gen.V10 m (outs m) c b) c).arrAt 2 cfg3.N :=
  (o11 m c).trans (congrArg (fun V => (dat3 V c).arrAt 2 cfg3.N) (funext fun c => funext fun b => (congrFun (V10_eq m c) b).symm))

/-- A region with one output window changes that window's array and no other. -/
theorem exit_arr {p : Fin 4} (lf : Pipeline.LaunchFacts (nD := nD) (τ := τ) cfgs p) {c : Dev nD}
    (d : Dat τ (Elt F) Unit ℕ (UR sig nD τ) ℕ (cfgs p) c) (o : Fin (cfgs p).W)
    (hin : ∀ w, w ≠ o → ((cfgs p).win w).isOut = false) (V : Valuation τ sig (Elt F))
    (hA : ∀ w, d.A w = V (Pipeline.arrRef (cfgs p).spec w)) (w : Fin (cfgs p).W) :
    d.arrAt w (cfgs p).N
      = Function.update V (Pipeline.arrRef (cfgs p).spec o) (d.arrAt o (cfgs p).N) (Pipeline.arrRef (cfgs p).spec w) := by
  by_cases h : w = o
  · subst h; rw [Function.update_self]
  · rw [Function.update_of_ne (StableHlo.devRef_ne_of_ne fun e => h (lf.win.arr_inj e)), d.arrAt_in w (hin w h), hA]

abbrev U4 (c : Dev nD) (b : Ref sig .tc) : Buf (Elt F) ((c : Thread nD τ).loc b) := V4 m c b
abbrev U6 (c : Dev nD) (b : Ref sig .tc) : Buf (Elt F) ((c : Thread nD τ).loc b) := V6 m (outs m) c b
abbrev U8 (c : Dev nD) (b : Ref sig .tc) : Buf (Elt F) ((c : Thread nD τ).loc b) := V8 m (outs m) c b
abbrev U10 (c : Dev nD) (b : Ref sig .tc) : Buf (Elt F) ((c : Thread nD τ).loc b) := V10 m (outs m) c b
def pdats : (p : Fin 4) → (c : Dev nD) → Dat τ (Elt F) Unit ℕ (UR sig nD τ) ℕ (cfgs p) c
  | ⟨0, _⟩ => fun c => dat0 (U4 m) c
  | ⟨1, _⟩ => fun c => dat1 (U6 m) c
  | ⟨2, _⟩ => fun c => dat2 (U8 m) c
  | ⟨3, _⟩ => fun c => dat3 (U10 m) c

abbrev Lnone : GSem nD τ sig → Finset Unit := fun _ => ∅
abbrev lv0 : GSem nD τ sig → Unit → ℕ := fun _ _ => 0
abbrev Rst (c : Dev nD) : sProp 𝕄 := iprop((∃ r, prngReg c r) ∗ ∃ W, owes (c : Thread nD τ) (0 : CellTallies nD τ sig Unit) W)
abbrev Est : Fin 5 → Dev nD → sProp 𝕄 := fun _ c => Rst (F := F) c

/-- A region with one output window `o`, as a segment from the unscoped buffers at `V` to `V` updated at `o`'s array. -/
def regOf {p : Fin 4} (lf : Pipeline.LaunchFacts (nD := nD) (τ := τ) cfgs p)
    (pd : (p : Fin 4) → (c : Dev nD) → Dat τ (Elt F) Unit ℕ (UR sig nD τ) ℕ (cfgs p) c)
    (o : Fin (cfgs p).W) (hin : ∀ w, w ≠ o → ((cfgs p).win w).isOut = false) (V V' : Dev nD → Valuation τ sig (Elt F))
    (hV' : ∀ c, V' c = Function.update (V c) (Pipeline.arrRef (cfgs p).spec o) ((pd p c).arrAt o (cfgs p).N))
    (hA : ∀ c w, (pd p c).A w = V c (Pipeline.arrRef (cfgs p).spec w))
    (hq : ∀ c w, (pd p c).q w = fullShare) (howed : ∀ c t, (pd p c).owed t = 0) (hrec : ∀ c, (pd p c).recorded 0 = Set.univ)
    (hbody : ∀ c, BodyObligation (pd p c) (defs₀ (F := F)) Variants.none () Set.univ)
    (hΦi : ∀ c, Pipeline.ΦA (cfgs p).spec c ⊢ (pd p c).Φ 0)
    (hΦo : ∀ c, (pd p c).Φ (Fin.last (cfgs p).N) ⊢ Pipeline.ΦA (cfgs p).spec c) :
    Pipeline.RegionSeg (pcfgs (F := F)) adm pd () defs₀ Variants.none Lnone lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lnone lv0 p howed
  pre c := iprop(StableHlo.held (c : Thread nD τ) (Pipeline.ucRefs τ sig) (V c) ∗ Rst c)
  post c := iprop(StableHlo.held (c : Thread nD τ) (Pipeline.ucRefs τ sig) (V' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    unfold Pipeline.Dat.owesAt Pipeline.owesWithin
    rw [howed c]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c ▸ Set.mem_univ x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b) (fun b => V' c b) ((pd p c).arrAt · (cfgs p).N)
      (fun w => by rw [hV']; exact exit_arr lf _ o hin _ (hA c) w)
      (fun b hb => by
        rw [hV']
        exact Function.update_of_ne (StableHlo.devRef_ne_of_ne fun e => hb (Finset.mem_image.mpr ⟨o, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ Variants.none Lnone lv0 0 :=
  regOf launch0 (pdats m) (7 : Fin 8) (by decide) (V4 m) (V5 m (outs m)) (fun c => congrArg (Function.update _ _) (outs5 m c))
    (A_eq0 _) (fun _ _ => rfl) (fun _ _ => rfl) (fun _ => rfl) (body_obligation0 _) (fun _ => .rfl) (fun _ => .rfl)
def reg1 : Pipeline.RegionSeg (pcfgs (F := F)) adm (pdats m) () defs₀ Variants.none Lnone lv0 1 :=
  regOf launch1 (pdats m) (7 : Fin 8) (by decide) (V6 m (outs m)) (V7 m (outs m)) (fun c => congrArg (Function.update _ _) (outs7 m c))
    (A_eq1 _) (fun _ _ => rfl) (fun _ _ => rfl) (fun _ => rfl) (body_obligation1 _) (fun _ => .rfl) (fun _ => .rfl)
def reg2 : Pipeline.RegionSeg (pcfgs (F := F)) adm (pdats m) () defs₀ Variants.none Lnone lv0 2 :=
  regOf launch2 (pdats m) (7 : Fin 8) (by decide) (V8 m (outs m)) (V9 m (outs m)) (fun c => congrArg (Function.update _ _) (outs9 m c))
    (A_eq2 _) (fun _ _ => rfl) (fun _ _ => rfl) (fun _ => rfl) (body_obligation2 _) (fun _ => .rfl) (fun _ => .rfl)
def reg3 : Pipeline.RegionSeg (pcfgs (F := F)) adm (pdats m) () defs₀ Variants.none Lnone lv0 3 :=
  regOf launch3 (pdats m) (2 : Fin 3) (by decide) (V10 m (outs m)) (V11 m (outs m)) (fun c => congrArg (Function.update _ _) (outs11 m c))
    (A_eq3 _) (fun _ _ => rfl) (fun _ _ => rfl) (fun _ => rfl) (body_obligation3 _) (hin3 _) (hout3 _)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v121) = Gen.V14 m (outs m) c main_v121
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ Variants.none Lnone lv0 m ρ main
    (segs m (outs m) Variants.none Lnone lv0 Est () (pdats m) (reg0 m) (reg1 m) (reg2 m) (reg3 m))
    (fun c Q => by
      rewrite [main_chain c, Seg.run_eq_chain,
        show (segs m (outs m) Variants.none Lnone lv0 Est () (pdats m) (reg0 m) (reg1 m) (reg2 m) (reg3 m) c).map Seg.prog = [
          StableHlo.seq hostOps0, StableHlo.seq hostOps0_1, StableHlo.seq hostOps0_2, StableHlo.seq hostOps0_3,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4, StableHlo.seq hostOps4_1, StableHlo.seq hostOps4_2] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rst c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl,
      sep_mono .rfl (by iintro ⟨-, HO⟩; iexact HO)⟩)
    (hinit := Pipeline.initEach Lnone lv0 fun c => ?_)
    (QY := fun c s => ∀ b ∈ Pipeline.ucRefs τ sig, s.mem ((c : Thread nD τ).1, b) = V14 m (outs m) c b)
    (hfin := fun c s' => ?_) (hQ := fun s h c => ?_)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V14 m (outs m) c) s') $$ [Hh HSI]
    · isplitl [Hh] <;> iassumption
    icases Hr with ⟨%h, HSI⟩
    imodintro
    isplitr; · ipureintro; exact h
    iexact HSI
  · have g := fun (b : Ref sig .tc) (hb : ¬ (Proc.devRef .tc b : DevRef τ sig).isScoped) =>
      h c _ (Finset.mem_filter.mpr ⟨StableHlo.devRef_mem_tcRefs b, hb⟩)
    exact ⟨g main_v121 (by decide),
      (g main_arg0 (by decide)).trans (V14_main_arg0 m _ c),
      (g main_arg1 (by decide)).trans (V14_main_arg1 m _ c),
      (g main_arg2 (by decide)).trans (V14_main_arg2 m _ c),
      (g main_arg3 (by decide)).trans (V14_main_arg3 m _ c),
      (g main_arg4 (by decide)).trans (V14_main_arg4 m _ c),
      (g main_arg5 (by decide)).trans (V14_main_arg5 m _ c),
      (g main_arg6 (by decide)).trans (V14_main_arg6 m _ c),
      (g main_arg7 (by decide)).trans (V14_main_arg7 m _ c),
      (g main_arg8 (by decide)).trans (V14_main_arg8 m _ c),
      (g main_arg9 (by decide)).trans (V14_main_arg9 m _ c),
      (g main_arg10 (by decide)).trans (V14_main_arg10 m _ c),
      (g main_arg11 (by decide)).trans (V14_main_arg11 m _ c)⟩

end Cert.Kernel.Hand

end
-- ==== Proof.KI.Comb0.lean ====
import proofs.«408660_j24927990186433_1_alg».proof.Proof.Gen.KernelIdeal.Launch
import proofs.«408660_j24927990186433_1_alg».proof.Proof.Gen.KernelIdeal.Skeleton
import proofs.«408660_j24927990186433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x128 := Rect.unit (s := S5000x128) ![0, 0] S5000x128.size inb_S5000x128_S5000x128_0_0
abbrev r0_w : Rect S128x64 := Rect.unit (s := S128x64) ![0, 0] S128x64.size inb_S128x64_S128x64_0_0
abbrev r0_b : Rect S1x64 := Rect.unit (s := S1x64) ![0, 0] S1x64.size inb_S1x64_S1x64_0_0
abbrev r0_o : Rect S5000x64 := Rect.unit (s := S5000x64) ![0, 0] S5000x64.size inb_S5000x64_S5000x64_0_0

/-- What the one store leaves in the output buffer, over the seven loaded blocks. -/
def out0_7 (x0 x1 x2 : Vec F S5000x128 .f32) (w0 w1 w2 : Vec F S128x64 .f32) (b : Vec F S1x64 .f32) : Vec F S5000x64 .f32 :=
  View.canon [⟨r0_o, k0_pay1 (View.ld x0 r0_a) (View.ld x1 r0_a) (View.ld x2 r0_a) (View.ld w0 r0_w) (View.ld w1 r0_w) (View.ld w2 r0_w) (View.ld b r0_b)⟩]

theorem off0 : (![0, 0] : Fin 2 → ℕ) = fun _ => 0 := by funext a; fin_cases a <;> rfl

/-- Every access spans its whole buffer, so this is relu (x0·w0 + x1·w1 + x2·w2 + b) of the blocks themselves. -/
theorem out0_7_eq (x0 x1 x2 : Vec F S5000x128 .f32) (w0 w1 w2 : Vec F S128x64 .f32) (b : Vec F S1x64 .f32) :
    out0_7 x0 x1 x2 w0 w1 w2 b = k0_pay1 x0 x1 x2 w0 w1 w2 b := by
  unfold out0_7
  rw [View.canon_unit_zero (S := S5000x64) off0]
  simp only [View.ld_unit_zero (S := S5000x128) off0, View.ld_unit_zero (S := S128x64) off0, View.ld_unit_zero (S := S1x64) off0]

set_option maxHeartbeats 4000000 in
/-- The body keeps its seven inputs and ends with out0_7 of them in the output buffer. -/
theorem sound_kernel0 (c : Dev nD) (E : Set ℕ) {i : grid0.Coords} {arg0 arg1 arg2 : Memref sig .tc .vmem S5000x128 .f32} {arg3 arg4 arg5 : Memref sig .tc .vmem S128x64 .f32} {arg6 : Memref sig .tc .vmem S1x64 .f32} {arg7 : Memref sig .tc .vmem S5000x64 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole}
    (x0 x1 x2 : Vec F S5000x128 .f32) (x3 x4 x5 : Vec F S128x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => ⟨_, List.mem_singleton_self _, View.mem_set_unit_zero off0 inb_S5000x64_S5000x64_0_0 y⟩

/-- After each point an input buffer holds its block and the output buffer out0_7 of the seven input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by
  dsimp only [dat0]

/-- Each input buffer holds its window's block at every point. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- At every point the buffers hold the blocks the body's triple asks for; the rest passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  iintro ⟨H0, H1, H2, H3, H4, H5, H6, H7⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Comb1.lean ====
import proofs.«408660_j24927990186433_1_alg».proof.Proof.Gen.KernelIdeal.Launch
import proofs.«408660_j24927990186433_1_alg».proof.Proof.Gen.KernelIdeal.Skeleton
import proofs.«408660_j24927990186433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S5000x64 := Rect.unit (s := S5000x64) ![0, 0] S5000x64.size inb_S5000x64_S5000x64_0_0

/-- What the one store leaves in the output buffer, over the seven loaded blocks. -/
def out1_7 (x0 x1 x2 : Vec F S5000x64 .f32) (w0 w1 w2 : Vec F S64x64 .f32) (b : Vec F S1x64 .f32) : Vec F S5000x64 .f32 :=
  View.canon [⟨r1_o, k1_pay1 (View.ld x0 r1_a) (View.ld x1 r1_a) (View.ld x2 r1_a) (View.ld w0 r1_w) (View.ld w1 r1_w) (View.ld w2 r1_w) (View.ld b r1_b)⟩]

theorem off1 : (![0, 0] : Fin 2 → ℕ) = fun _ => 0 := by funext a; fin_cases a <;> rfl

/-- Every access spans its whole buffer, so this is relu (x0·w0 + x1·w1 + x2·w2 + b) of the blocks themselves. -/
theorem out1_7_eq (x0 x1 x2 : Vec F S5000x64 .f32) (w0 w1 w2 : Vec F S64x64 .f32) (b : Vec F S1x64 .f32) :
    out1_7 x0 x1 x2 w0 w1 w2 b = k1_pay1 x0 x1 x2 w0 w1 w2 b := by
  unfold out1_7
  rw [View.canon_unit_zero (S := S5000x64) off1]
  simp only [View.ld_unit_zero (S := S5000x64) off1, View.ld_unit_zero (S := S64x64) off1, View.ld_unit_zero (S := S1x64) off1]

set_option maxHeartbeats 4000000 in
/-- The body keeps its seven inputs and ends with out1_7 of them in the output buffer. -/
theorem sound_kernel1 (c : Dev nD) (E : Set ℕ) {i : grid1.Coords} {arg0 arg1 arg2 : Memref sig .tc .vmem S5000x64 .f32} {arg3 arg4 arg5 : Memref sig .tc .vmem S64x64 .f32} {arg6 : Memref sig .tc .vmem S1x64 .f32} {arg7 : Memref sig .tc .vmem S5000x64 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole}
    (x0 x1 x2 : Vec F S5000x64 .f32) (x3 x4 x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__combine_kernel i arg0 harg0 arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => ⟨_, List.mem_singleton_self _, View.mem_set_unit_zero off1 inb_S5000x64_S5000x64_0_0 y⟩

/-- After each point an input buffer holds its block and the output buffer out1_7 of the seven input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-- Each input buffer holds its window's block at every point. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- At every point the buffers hold the blocks the body's triple asks for; the rest passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro ⟨H0, H1, H2, H3, H4, H5, H6, H7⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Comb2.lean ====
import proofs.«408660_j24927990186433_1_alg».proof.Proof.Gen.KernelIdeal.Launch
import proofs.«408660_j24927990186433_1_alg».proof.Proof.Gen.KernelIdeal.Skeleton
import proofs.«408660_j24927990186433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S5000x64 := Rect.unit (s := S5000x64) ![0, 0] S5000x64.size inb_S5000x64_S5000x64_0_0

/-- What the one store leaves in the output buffer, over the seven loaded blocks. -/
def out2_7 (x0 x1 x2 : Vec F S5000x64 .f32) (w0 w1 w2 : Vec F S64x64 .f32) (b : Vec F S1x64 .f32) : Vec F S5000x64 .f32 :=
  View.canon [⟨r2_o, k2_pay1 (View.ld x0 r2_a) (View.ld x1 r2_a) (View.ld x2 r2_a) (View.ld w0 r2_w) (View.ld w1 r2_w) (View.ld w2 r2_w) (View.ld b r2_b)⟩]

theorem off2 : (![0, 0] : Fin 2 → ℕ) = fun _ => 0 := by funext a; fin_cases a <;> rfl

/-- Every access spans its whole buffer, so this is relu (x0·w0 + x1·w1 + x2·w2 + b) of the blocks themselves. -/
theorem out2_7_eq (x0 x1 x2 : Vec F S5000x64 .f32) (w0 w1 w2 : Vec F S64x64 .f32) (b : Vec F S1x64 .f32) :
    out2_7 x0 x1 x2 w0 w1 w2 b = k2_pay1 x0 x1 x2 w0 w1 w2 b := by
  unfold out2_7
  rw [View.canon_unit_zero (S := S5000x64) off2]
  simp only [View.ld_unit_zero (S := S5000x64) off2, View.ld_unit_zero (S := S64x64) off2, View.ld_unit_zero (S := S1x64) off2]

set_option maxHeartbeats 4000000 in
/-- The body keeps its seven inputs and ends with out2_7 of them in the output buffer. -/
theorem sound_kernel2 (c : Dev nD) (E : Set ℕ) {i : grid2.Coords} {arg0 arg1 arg2 : Memref sig .tc .vmem S5000x64 .f32} {arg3 arg4 arg5 : Memref sig .tc .vmem S64x64 .f32} {arg6 : Memref sig .tc .vmem S1x64 .f32} {arg7 : Memref sig .tc .vmem S5000x64 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole}
    (x0 x1 x2 : Vec F S5000x64 .f32) (x3 x4 x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__combine_kernel i arg0 harg0 arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ fun y => ⟨_, List.mem_singleton_self _, View.mem_set_unit_zero off2 inb_S5000x64_S5000x64_0_0 y⟩

/-- After each point an input buffer holds its block and the output buffer out2_7 of the seven input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by
  dsimp only [dat2]

/-- Each input buffer holds its window's block at every point. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- At every point the buffers hold the blocks the body's triple asks for; the rest passes through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  iintro ⟨H0, H1, H2, H3, H4, H5, H6, H7⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Pool.lean ====
import proofs.«408660_j24927990186433_1_alg».proof.Proof.Gen.KernelIdeal.Launch
import proofs.«408660_j24927990186433_1_alg».proof.Proof.Gen.KernelIdeal.Skeleton
import proofs.«408660_j24927990186433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem off00_3 : (![0, 0] : Fin 2 → Nat) = fun _ => 0 := by funext a; fin_cases a <;> rfl

abbrev cond3_0 (i : grid3.Coords) : Prop :=
  (Scalar.cmpi .ne (Scalar.extui (Scalar.cmpi .eq (BitVec.ofNat 32 (i 0).val) 0#32)) 0#32) = 1#1
abbrev cond3_1 (i : grid3.Coords) : Prop := k3_cond2 i = 1#1

/-- The tile's product is added to zero where the first condition holds, else to `xs`; where the second holds the sum is also the output. -/
theorem sound_kernel3 (c : Dev nD) (i : grid3.Coords)
    (arg1 : Memref sig .tc .vmem S5000x64 .f32) (harg1 : arg1.IsWhole) (arg2 : Memref sig .tc .vmem S5000x1 .i32) (harg2 : arg2.IsWhole)
    (arg3 : Memref sig .tc .vmem S64x64 .f32) (harg3 : arg3.IsWhole) (arg4 : Memref sig .tc .vmem S64x64 .f32) (harg4 : arg4.IsWhole)
    (x0 : Vec F S5000x64 .f32) (x1 : Vec F S5000x1 .i32) (xo xs : Vec F S64x64 .f32) (E : Set ℕ) (K : PUnit → sProp 𝕄) :
    iprop(ownsTc c arg1 fullShare x0 ∗ ownsTc c arg2 fullShare x1 ∗ ownsTc c arg3 fullShare xo
        ∗ ownsTc c arg4 fullShare xs
        ∗ (iprop(ownsTc c arg1 fullShare x0 ∗ ownsTc c arg2 fullShare x1
            ∗ ownsTc c arg3 fullShare (if cond3_1 i then k3_pay2 x0 x1 (if cond3_0 i then k3_pay1 else xs) else xo)
            ∗ ownsTc c arg4 fullShare (k3_pay2 x0 x1 (if cond3_0 i then k3_pay1 else xs))) -∗ K ⟨⟩))
      ⊢ wp frame (wpE (defs₀ (F := F)) Variants.none c none) E (cc3__pool_kernel i arg1 harg1 arg2 harg2 arg3 harg3 arg4 harg4) K := by
  by_cases hc0 : cond3_0 i <;> by_cases hc1 : cond3_1 i <;>
  · first | rw [if_pos hc0] | rw [if_neg hc0]
    first | rw [if_pos hc1] | rw [if_neg hc1]
    simp only [cc3__pool_kernel_eq_skeleton]; unfold cc3__pool_kernel_skel ownsTc owns
    iintro ⟨⟨%f0, %hf0, H0⟩, ⟨%f1, %hf1, H1⟩, ⟨%f2, %hf2, H2⟩, ⟨%fs, %hfs, HS⟩, Hk⟩
    subst hf0 hf1 hf2 hfs
    sl_exec! (disch := first | exact hc0 | exact hc1)
    sl_step
    iapply Hk
    isplitl [H0]; swap; isplitl [H1]; swap; isplitl [H2]
    all_goals
      iexists _; isplitr; swap; · iassumption
      ipureintro
      first
        | rfl
        | (sl_unfold_run_names
           simp only [View.read_writes_junk_eq_canon, View.canon_cons_unit_zero (S := S64x64) off00_3, View.readAt_eq_ld,
             View.ld_unit_zero (S := S5000x64) off00_3, View.ld_unit_zero (S := S5000x1) off00_3,
             View.ld_unit_zero (S := S64x64) off00_3, View.readCov_cons_toLoadRect])

/-- Window `w`'s block at point `t` of the array `V` gives. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after point `n`: the tile's product added to zero at the first point, to the sum so far afterwards. -/
def acc3 (c : Dev nD) : (n : ℕ) → n < cfg3.N → Vec F S64x64 .f32
  | 0, hn => k3_pay2 (iblk3 V c 0 ⟨0, hn⟩) (iblk3 V c 1 ⟨0, hn⟩) k3_pay1
  | n + 1, hn => k3_pay2 (iblk3 V c 0 ⟨n + 1, hn⟩) (iblk3 V c 1 ⟨n + 1, hn⟩) (acc3 c n (Nat.lt_of_succ_lt hn))

theorem acc3_zero (c : Dev nD) (hn : 0 < cfg3.N) :
    acc3 V c 0 hn = k3_pay2 (iblk3 V c 0 ⟨0, hn⟩) (iblk3 V c 1 ⟨0, hn⟩) k3_pay1 := rfl

theorem acc3_succ (c : Dev nD) (n : ℕ) (hn : n + 1 < cfg3.N) :
    acc3 V c (n + 1) hn = k3_pay2 (iblk3 V c 0 ⟨n + 1, hn⟩) (iblk3 V c 1 ⟨n + 1, hn⟩) (acc3 V c n (Nat.lt_of_succ_lt hn)) := rfl

theorem hcond3_0 : ∀ t : Fin cfg3.N, cond3_0 (grid3.coords t) ↔ t.val = 0 := by decide +kernel

/-- One step of the accumulator, from contents `a` that are the sum so far at every point but the first. -/
theorem acc3_step (c : Dev nD) (t : Fin cfg3.N) (a : Vec F S64x64 .f32)
    (ha : ∀ h : t.val ≠ 0, a = acc3 V c (t.val - 1) (by omega)) :
    k3_pay2 (iblk3 V c 0 t) (iblk3 V c 1 t) (if cond3_0 (grid3.coords t) then k3_pay1 else a) = acc3 V c t.val t.isLt := by
  obtain ⟨n, hn⟩ := t
  cases n with
  | zero => rw [if_pos ((hcond3_0 _).mpr rfl)]; rfl
  | succ n => rw [if_neg (mt (hcond3_0 _).mp (Nat.succ_ne_zero n)), ha (Nat.succ_ne_zero n)]; rfl

abbrev scM3 : Memref sig .tc .vmem S64x64 .f32 := Memref.whole cc3_scratch0

/-- Before position `t` the scratch holds the sum so far (anything before the first point). -/
def Phi3 (c : Dev nD) (t : Fin (cfg3.N + 1)) : sProp 𝕄 :=
  iprop(iprop((∃ a, ⌜∀ h : t.val ≠ 0, a = acc3 V c (t.val - 1) (by omega)⌝ ∗ ownsTc c scM3 fullShare a)
    ∗ Pipeline.scopedRestBut (Ix := Unit) (Name := ℕ) (U := UR sig nD τ) (Lvl := ℕ) (Val := Elt F) spec3 c [cc3_scratch0])
    ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ := Phi3 V c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = acc3 V c t.val t.isLt := by dsimp only [dat3]

theorem Phi3_A (c : Dev nD) (t : Fin (cfg3.N + 1)) :
    (Phi3 V c t ⊢ Pipeline.ΦA spec3 c) ∧ (t.val = 0 → Pipeline.ΦA spec3 c ⊢ Phi3 V c t) := by
  unfold Pipeline.ΦA Phi3; rw [scopedRest3_split]; simp only [scM3, owns_whole]
  refine ⟨?_, fun h0 => ?_⟩
  · iintro ⟨⟨⟨%a, -, HS⟩, HR⟩, Hg⟩; iframe HR Hg; iexists a; iexact HS
  · iintro ⟨⟨⟨%a, HS⟩, HR⟩, Hg⟩; iframe HR Hg; iexists a; iframe HS; ipureintro; exact fun h => absurd h0 h

theorem hin3 (c : Dev nD) : Pipeline.ΦA spec3 c ⊢ (dat3 V c).Φ 0 := (Phi3_A V c 0).2 rfl

theorem hout3 (c : Dev nD) : (dat3 V c).Φ (Fin.last cfg3.N) ⊢ Pipeline.ΦA spec3 c := (Phi3_A V c _).1

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

abbrev ms3_0 (t : Fin cfg3.N) : Memref sig .tc .vmem S5000x64 .f32 := win3_0.stage (cfg3.slots t 0)
abbrev ms3_1 (t : Fin cfg3.N) : Memref sig .tc .vmem S5000x1 .i32 := win3_1.stage (cfg3.slots t 1)
abbrev ms3_2 (t : Fin cfg3.N) : Memref sig .tc .vmem S64x64 .f32 := win3_2.stage (cfg3.slots t 2)

theorem out3_2 : ∀ t : Fin cfg3.N, (¬cond3_1 (grid3.coords t) ∧ cfg3.idle 2 (grid3.coords t) = true ∧ (cfg3.win 2).flush t = false)
    ∨ (cond3_1 (grid3.coords t) ∧ cfg3.idle 2 (grid3.coords t) = false) := by decide +kernel

theorem leaves3_2 (c : Dev nD) (t : Fin cfg3.N) (d) :
    ownsTc c (ms3_2 t) fullShare (if cond3_1 (grid3.coords t) then acc3 V c t.val t.isLt else (dat3 V c).before 2 t d)
      ⊢ (dat3 V c).leavesExact 2 t := by
  rcases out3_2 t with ⟨h, hi, hf⟩ | ⟨h, hi⟩
  · rw [if_neg h, Dat.leavesExact_idle _ 2 t hi hf]; iintro H; iexists d; iexact H
  · rw [if_pos h]; unfold Dat.leavesExact; rw [hi, after3_2]

/-- At every point the body takes the scratch from the sum so far to the sum one step on. -/
theorem body_obligation3 (c : Dev nD) : BodyObligation (dat3 (F := F) V c) (defs₀ (F := F)) Variants.none () Set.univ := fun t => by
  rw [bigSep_W3, bigSep_W3]
  show iprop(Phi3 V c t.castSucc ∗ _ ∗ (∃ d, ownsTc c (ms3_0 t) _ _) ∗ (∃ d, ownsTc c (ms3_1 t) _ _) ∗ (∃ d, ownsTc c (ms3_2 t) _ _))
    ⊢ wp _ _ _ (bodyAt3 t) fun _ => iprop(Phi3 V c t.succ ∗ (dat3 V c).owesAt () t.castSucc
      ∗ ownsTc c (ms3_0 t) _ (iblk3 V c 0 t) ∗ ownsTc c (ms3_1 t) _ (iblk3 V c 1 t) ∗ (dat3 V c).leavesExact 2 t)
  simp only [before3_0, before3_1]; unfold Phi3
  iintro ⟨⟨⟨⟨%a, %ha, HS⟩, HR⟩, Hg⟩, Ho, ⟨%d0, H0⟩, ⟨%d1, H1⟩, ⟨%d2, H2⟩⟩
  iapply (sound_kernel3 (xs := a))
  iframe H0 H1 H2 HS
  iintro ⟨H0, H1, H2, HS⟩
  iframe HR Hg Ho H0 H1
  isplitl [HS]
  · iexists _; iframe HS; ipureintro; exact fun _ => acc3_step V c t a ha
  rw [acc3_step V c t a ha]
  iapply (leaves3_2 V c t d2); iexact H2

end Cert.KernelIdeal.Hand

end
-- ==== Proof.KI.Segs.lean ====
import proofs.«408660_j24927990186433_1_alg».proof.Proof.Gen.KernelIdeal.Launch
import proofs.«408660_j24927990186433_1_alg».proof.Proof.Gen.KernelIdeal.Skeleton
import proofs.«408660_j24927990186433_1_alg».proof.Proof.Gen.KernelIdeal.Points
import proofs.«408660_j24927990186433_1_alg».proof.Proof.Gen.KernelIdeal.Regions
import proofs.«408660_j24927990186433_1_alg».proof.Proof.KI.Comb0
import proofs.«408660_j24927990186433_1_alg».proof.Proof.KI.Comb1
import proofs.«408660_j24927990186433_1_alg».proof.Proof.KI.Comb2
import proofs.«408660_j24927990186433_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def X5 (c : Dev nD) : Valuation τ sig (Elt F) :=
  Function.update (V4 m c) main_v41 ((dat0 (fun c b => V4 m c b) c).arrAt 7 cfg0.N)
def X6 (c : Dev nD) : Valuation τ sig (Elt F) := StableHlo.after hostOps1 (X5 m c)
def X7 (c : Dev nD) : Valuation τ sig (Elt F) :=
  Function.update (X6 m c) main_v74 ((dat1 (fun c b => X6 m c b) c).arrAt 7 cfg1.N)
def X8 (c : Dev nD) : Valuation τ sig (Elt F) := StableHlo.after hostOps2 (X7 m c)
def X9 (c : Dev nD) : Valuation τ sig (Elt F) :=
  Function.update (X8 m c) main_v107 ((dat2 (fun c b => X8 m c b) c).arrAt 7 cfg2.N)
def X10 (c : Dev nD) : Valuation τ sig (Elt F) := StableHlo.after hostOps3 (X9 m c)
def X11 (c : Dev nD) : Valuation τ sig (Elt F) :=
  Function.update (X10 m c) main_v109 ((dat3 (fun c b => X10 m c b) c).arrAt 2 cfg3.N)

/-- What the regions leave, in stages: each region's entry contents read the earlier regions' outputs. -/
def outs : Gen.Outs (F := F) := fun J r c =>
  if J = 5 then X5 m c r else if J = 7 then X7 m c r else if J = 9 then X9 m c r else if J = 11 then X11 m c r
  else V0 m c r

theorem outs5 (c : Dev nD) : outs m 5 main_v41 c = (dat0 (fun c b => Gen.V4 m c b) c).arrAt 7 cfg0.N := by
  unfold outs X5; rw [if_pos rfl, Function.update_self]
theorem V6_eq (c : Dev nD) : V6 m (outs m) c = X6 m c :=
  congrArg (fun a => StableHlo.after hostOps1 (Function.update (V4 m c) main_v41 a)) (outs5 m c)
theorem o7 (c : Dev nD) : outs m 7 main_v74 c = (dat1 (fun c b => X6 m c b) c).arrAt 7 cfg1.N := by
  unfold outs X7; rw [if_neg (by decide), if_pos rfl, Function.update_self]
theorem outs7 (c : Dev nD) : outs m 7 main_v74 c = (dat1 (fun c b => Gen.V6 m (outs m) c b) c).arrAt 7 cfg1.N :=
  (o7 m c).trans (congrArg (fun V => (dat1 V c).arrAt 7 cfg1.N) (funext fun c => funext fun b => (congrFun (V6_eq m c) b).symm))
theorem V8_eq (c : Dev nD) : V8 m (outs m) c = X8 m c :=
  congrArg₂ (fun (V : Valuation τ sig (Elt F)) a => StableHlo.after hostOps2 (Function.update V main_v74 a)) (V6_eq m c) (o7 m c)
theorem o9 (c : Dev nD) : outs m 9 main_v107 c = (dat2 (fun c b => X8 m c b) c).arrAt 7 cfg2.N := by
  unfold outs X9; rw [if_neg (by decide), if_neg (by decide), if_pos rfl, Function.update_self]
theorem outs9 (c : Dev nD) : outs m 9 main_v107 c = (dat2 (fun c b => Gen.V8 m (outs m) c b) c).arrAt 7 cfg2.N :=
  (o9 m c).trans (congrArg (fun V => (dat2 V c).arrAt 7 cfg2.N) (funext fun c => funext fun b => (congrFun (V8_eq m c) b).symm))
theorem V10_eq (c : Dev nD) : V10 m (outs m) c = X10 m c :=
  congrArg₂ (fun (V : Valuation τ sig (Elt F)) a => StableHlo.after hostOps3 (Function.update V main_v107 a)) (V8_eq m c) (o9 m c)
theorem o11 (c : Dev nD) : outs m 11 main_v109 c = (dat3 (fun c b => X10 m c b) c).arrAt 2 cfg3.N := by
  unfold outs X11; rw [if_neg (by decide), if_neg (by decide), if_neg (by decide), if_pos rfl, Function.update_self]
theorem outs11 (c : Dev nD) : outs m 11 main_v109 c = (dat3 (fun c b => Gen.V10 m (outs m) c b) c).arrAt 2 cfg3.N :=
  (o11 m c).trans (congrArg (fun V => (dat3 V c).arrAt 2 cfg3.N) (funext fun c => funext fun b => (congrFun (V10_eq m c) b).symm))

/-- A region with one output window changes that window's array and no other. -/
theorem exit_arr {p : Fin 4} (lf : Pipeline.LaunchFacts (nD := nD) (τ := τ) cfgs p) {c : Dev nD}
    (d : Dat τ (Elt F) Unit ℕ (UR sig nD τ) ℕ (cfgs p) c) (o : Fin (cfgs p).W)
    (hin : ∀ w, w ≠ o → ((cfgs p).win w).isOut = false) (V : Valuation τ sig (Elt F))
    (hA : ∀ w, d.A w = V (Pipeline.arrRef (cfgs p).spec w)) (w : Fin (cfgs p).W) :
    d.arrAt w (cfgs p).N
      = Function.update V (Pipeline.arrRef (cfgs p).spec o) (d.arrAt o (cfgs p).N) (Pipeline.arrRef (cfgs p).spec w) := by
  by_cases h : w = o
  · subst h; rw [Function.update_self]
  · rw [Function.update_of_ne (StableHlo.devRef_ne_of_ne fun e => h (lf.win.arr_inj e)), d.arrAt_in w (hin w h), hA]

abbrev U4 (c : Dev nD) (b : Ref sig .tc) : Buf (Elt F) ((c : Thread nD τ).loc b) := V4 m c b
abbrev U6 (c : Dev nD) (b : Ref sig .tc) : Buf (Elt F) ((c : Thread nD τ).loc b) := V6 m (outs m) c b
abbrev U8 (c : Dev nD) (b : Ref sig .tc) : Buf (Elt F) ((c : Thread nD τ).loc b) := V8 m (outs m) c b
abbrev U10 (c : Dev nD) (b : Ref sig .tc) : Buf (Elt F) ((c : Thread nD τ).loc b) := V10 m (outs m) c b
def pdats : (p : Fin 4) → (c : Dev nD) → Dat τ (Elt F) Unit ℕ (UR sig nD τ) ℕ (cfgs p) c
  | ⟨0, _⟩ => fun c => dat0 (U4 m) c
  | ⟨1, _⟩ => fun c => dat1 (U6 m) c
  | ⟨2, _⟩ => fun c => dat2 (U8 m) c
  | ⟨3, _⟩ => fun c => dat3 (U10 m) c

abbrev Lnone : GSem nD τ sig → Finset Unit := fun _ => ∅
abbrev lv0 : GSem nD τ sig → Unit → ℕ := fun _ _ => 0
abbrev Rst (c : Dev nD) : sProp 𝕄 := iprop((∃ r, prngReg c r) ∗ ∃ W, owes (c : Thread nD τ) (0 : CellTallies nD τ sig Unit) W)
abbrev Est : Fin 5 → Dev nD → sProp 𝕄 := fun _ c => Rst (F := F) c

/-- A region with one output window `o`, as a segment from the unscoped buffers at `V` to `V` updated at `o`'s array. -/
def regOf {p : Fin 4} (lf : Pipeline.LaunchFacts (nD := nD) (τ := τ) cfgs p)
    (pd : (p : Fin 4) → (c : Dev nD) → Dat τ (Elt F) Unit ℕ (UR sig nD τ) ℕ (cfgs p) c)
    (o : Fin (cfgs p).W) (hin : ∀ w, w ≠ o → ((cfgs p).win w).isOut = false) (V V' : Dev nD → Valuation τ sig (Elt F))
    (hV' : ∀ c, V' c = Function.update (V c) (Pipeline.arrRef (cfgs p).spec o) ((pd p c).arrAt o (cfgs p).N))
    (hA : ∀ c w, (pd p c).A w = V c (Pipeline.arrRef (cfgs p).spec w))
    (hq : ∀ c w, (pd p c).q w = fullShare) (howed : ∀ c t, (pd p c).owed t = 0) (hrec : ∀ c, (pd p c).recorded 0 = Set.univ)
    (hbody : ∀ c, BodyObligation (pd p c) (defs₀ (F := F)) Variants.none () Set.univ)
    (hΦi : ∀ c, Pipeline.ΦA (cfgs p).spec c ⊢ (pd p c).Φ 0)
    (hΦo : ∀ c, (pd p c).Φ (Fin.last (cfgs p).N) ⊢ Pipeline.ΦA (cfgs p).spec c) :
    Pipeline.RegionSeg (pcfgs (F := F)) adm pd () defs₀ Variants.none Lnone lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lnone lv0 p howed
  pre c := iprop(StableHlo.held (c : Thread nD τ) (Pipeline.ucRefs τ sig) (V c) ∗ Rst c)
  post c := iprop(StableHlo.held (c : Thread nD τ) (Pipeline.ucRefs τ sig) (V' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    unfold Pipeline.Dat.owesAt Pipeline.owesWithin
    rw [howed c]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c ▸ Set.mem_univ x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b) (fun b => V' c b) ((pd p c).arrAt · (cfgs p).N)
      (fun w => by rw [hV']; exact exit_arr lf _ o hin _ (hA c) w)
      (fun b hb => by
        rw [hV']
        exact Function.update_of_ne (StableHlo.devRef_ne_of_ne fun e => hb (Finset.mem_image.mpr ⟨o, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 : Pipeline.RegionSeg (pcfgs (F := F)) adm (pdats m) () defs₀ Variants.none Lnone lv0 0 :=
  regOf launch0 (pdats m) (7 : Fin 8) (by decide) (V4 m) (V5 m (outs m)) (fun c => congrArg (Function.update _ _) (outs5 m c))
    (A_eq0 _) (fun _ _ => rfl) (fun _ _ => rfl) (fun _ => rfl) (body_obligation0 _) (fun _ => .rfl) (fun _ => .rfl)
def reg1 : Pipeline.RegionSeg (pcfgs (F := F)) adm (pdats m) () defs₀ Variants.none Lnone lv0 1 :=
  regOf launch1 (pdats m) (7 : Fin 8) (by decide) (V6 m (outs m)) (V7 m (outs m)) (fun c => congrArg (Function.update _ _) (outs7 m c))
    (A_eq1 _) (fun _ _ => rfl) (fun _ _ => rfl) (fun _ => rfl) (body_obligation1 _) (fun _ => .rfl) (fun _ => .rfl)
def reg2 : Pipeline.RegionSeg (pcfgs (F := F)) adm (pdats m) () defs₀ Variants.none Lnone lv0 2 :=
  regOf launch2 (pdats m) (7 : Fin 8) (by decide) (V8 m (outs m)) (V9 m (outs m)) (fun c => congrArg (Function.update _ _) (outs9 m c))
    (A_eq2 _) (fun _ _ => rfl) (fun _ _ => rfl) (fun _ => rfl) (body_obligation2 _) (fun _ => .rfl) (fun _ => .rfl)
def reg3 : Pipeline.RegionSeg (pcfgs (F := F)) adm (pdats m) () defs₀ Variants.none Lnone lv0 3 :=
  regOf launch3 (pdats m) (2 : Fin 3) (by decide) (V10 m (outs m)) (V11 m (outs m)) (fun c => congrArg (Function.update _ _) (outs11 m c))
    (A_eq3 _) (fun _ _ => rfl) (fun _ _ => rfl) (fun _ => rfl) (body_obligation3 _) (hin3 _) (hout3 _)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v121) = Gen.V14 m (outs m) c main_v121
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ Variants.none Lnone lv0 m ρ main
    (segs m (outs m) Variants.none Lnone lv0 Est () (pdats m) (reg0 m) (reg1 m) (reg2 m) (reg3 m))
    (fun c Q => by
      rewrite [main_chain c, Seg.run_eq_chain,
        show (segs m (outs m) Variants.none Lnone lv0 Est () (pdats m) (reg0 m) (reg1 m) (reg2 m) (reg3 m) c).map Seg.prog = [
          StableHlo.seq hostOps0, StableHlo.seq hostOps0_1, StableHlo.seq hostOps0_2, StableHlo.seq hostOps0_3,
          Prog.lift (.customCall (Pipeline.entry 0) ()), StableHlo.seq hostOps1,
          Prog.lift (.customCall (Pipeline.entry 1) ()), StableHlo.seq hostOps2,
          Prog.lift (.customCall (Pipeline.entry 2) ()), StableHlo.seq hostOps3,
          Prog.lift (.customCall (Pipeline.entry 3) ()), StableHlo.seq hostOps4, StableHlo.seq hostOps4_1, StableHlo.seq hostOps4_2] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rst c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl,
      sep_mono .rfl (by iintro ⟨-, HO⟩; iexact HO)⟩)
    (hinit := Pipeline.initEach Lnone lv0 fun c => ?_)
    (QY := fun c s => ∀ b ∈ Pipeline.ucRefs τ sig, s.mem ((c : Thread nD τ).1, b) = V14 m (outs m) c b)
    (hfin := fun c s' => ?_) (hQ := fun s h c => ?_)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V14 m (outs m) c) s') $$ [Hh HSI]
    · isplitl [Hh] <;> iassumption
    icases Hr with ⟨%h, HSI⟩
    imodintro
    isplitr; · ipureintro; exact h
    iexact HSI
  · have g := fun (b : Ref sig .tc) (hb : ¬ (Proc.devRef .tc b : DevRef τ sig).isScoped) =>
      h c _ (Finset.mem_filter.mpr ⟨StableHlo.devRef_mem_tcRefs b, hb⟩)
    exact ⟨g main_v121 (by decide),
      (g main_arg0 (by decide)).trans (V14_main_arg0 m _ c),
      (g main_arg1 (by decide)).trans (V14_main_arg1 m _ c),
      (g main_arg2 (by decide)).trans (V14_main_arg2 m _ c),
      (g main_arg3 (by decide)).trans (V14_main_arg3 m _ c),
      (g main_arg4 (by decide)).trans (V14_main_arg4 m _ c),
      (g main_arg5 (by decide)).trans (V14_main_arg5 m _ c),
      (g main_arg6 (by decide)).trans (V14_main_arg6 m _ c),
      (g main_arg7 (by decide)).trans (V14_main_arg7 m _ c),
      (g main_arg8 (by decide)).trans (V14_main_arg8 m _ c),
      (g main_arg9 (by decide)).trans (V14_main_arg9 m _ c),
      (g main_arg10 (by decide)).trans (V14_main_arg10 m _ c),
      (g main_arg11 (by decide)).trans (V14_main_arg11 m _ c)⟩

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev S100000x128 : Shape := ⟨2, ![100000, 128]⟩
abbrev S384x64 : Shape := ⟨2, ![384, 64]⟩
abbrev S64 : Shape := ⟨1, ![64]⟩
abbrev S192x64 : Shape := ⟨2, ![192, 64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S1600000x64 : Shape := ⟨2, ![1600000, 64]⟩
abbrev S64x64 : Shape := ⟨2, ![64, 64]⟩
abbrev S1x1 : Shape := ⟨2, ![1, 1]⟩
abbrev S100000x384 : Shape := ⟨2, ![100000, 384]⟩
abbrev S100000x192 : Shape := ⟨2, ![100000, 192]⟩

theorem bcast_S_S100000x128 : S_.BroadcastsInDim S100000x128 (![] : Fin 0 → Fin S100000x128.rank) := by decide
theorem bcast_S_S1600000 : S_.BroadcastsInDim S1600000 (![] : Fin 0 → Fin S1600000.rank) := by decide
theorem bcast_S_S100000 : S_.BroadcastsInDim S100000 (![] : Fin 0 → Fin S100000.rank) := by decide
theorem bcast_S1600000_S1600000x1_0 : S1600000.BroadcastsInDim S1600000x1 (![0] : Fin 1 → Fin S1600000x1.rank) := by decide
theorem bcast_S100000_S100000x1_0 : S100000.BroadcastsInDim S100000x1 (![0] : Fin 1 → Fin S100000x1.rank) := by decide
theorem bcast_S100000x1_S100000x128_0_1 : S100000x1.BroadcastsInDim S100000x128 (![0, 1] : Fin 2 → Fin S100000x128.rank) := by decide
theorem slices_S384x64_S128x64_0_0 : S384x64.Slices ![0, 0] S128x64 := by decide
theorem slices_S384x64_S128x64_128_0 : S384x64.Slices ![128, 0] S128x64 := by decide
theorem slices_S384x64_S128x64_256_0 : S384x64.Slices ![256, 0] S128x64 := by decide
theorem shapeCasts_S64_S1x64 : S64.ShapeCasts S1x64 := by decide
theorem bcast_S100000x1_S100000x64_0_1 : S100000x1.BroadcastsInDim S100000x64 (![0, 1] : Fin 2 → Fin S100000x64.rank) := by decide
theorem bcast_S_S100000x64 : S_.BroadcastsInDim S100000x64 (![] : Fin 0 → Fin S100000x64.rank) := by decide
theorem slices_S192x64_S64x64_0_0 : S192x64.Slices ![0, 0] S64x64 := by decide
theorem slices_S192x64_S64x64_64_0 : S192x64.Slices ![64, 0] S64x64 := by decide
theorem slices_S192x64_S64x64_128_0 : S192x64.Slices ![128, 0] S64x64 := by decide
theorem shapeCasts_S100000_S100000x1 : S100000.ShapeCasts S100000x1 := by decide
theorem bcast_S_S64 : S_.BroadcastsInDim S64 (![] : Fin 0 → Fin S64.rank) := by decide
theorem bcast_S64_S64x1_0 : S64.BroadcastsInDim S64x1 (![0] : Fin 1 → Fin S64x1.rank) := by decide
theorem bcast_S64x1_S64x64_0_1 : S64x1.BroadcastsInDim S64x64 (![0, 1] : Fin 2 → Fin S64x64.rank) := by decide
theorem bcast_S1_S1x1_1 : S1.BroadcastsInDim S1x1 (![1] : Fin 1 → Fin S1x1.rank) := by decide
theorem bcast_S1x1_S64x1_0_1 : S1x1.BroadcastsInDim S64x1 (![0, 1] : Fin 2 → Fin S64x1.rank) := by decide
theorem concatenates_S100000x128_S100000x128_S100000x128_S100000x384_d1 : Shape.Concatenates [S100000x128, S100000x128, S100000x128] S100000x384 1 := by decide
theorem bcast_S64_S1x64_1 : S64.BroadcastsInDim S1x64 (![1] : Fin 1 → Fin S1x64.rank) := by decide
theorem bcast_S1x64_S100000x64_0_1 : S1x64.BroadcastsInDim S100000x64 (![0, 1] : Fin 2 → Fin S100000x64.rank) := by decide
theorem concatenates_S100000x64_S100000x64_S100000x64_S100000x192_d1 : Shape.Concatenates [S100000x64, S100000x64, S100000x64] S100000x192 1 := by decide
theorem bcast_S_S64x64 : S_.BroadcastsInDim S64x64 (![] : Fin 0 → Fin S64x64.rank) := by decide
theorem scatter_S100000_S1600000x1_S1600000_n_0_0_1_wf : ScatterDims.WF S100000 S1600000x1 S1600000 [] [0] [0] 1 := by decide
theorem gather_S100000x128_S1600000x1_S1600000x128_1_0_n_n_0_1_1128_wf : GatherDims.WF S100000x128 S1600000x1 S1600000x128 [1] [0] [] [0] [] 1 ![1, 128] := by decide
theorem scatter_S100000x128_S1600000x1_S1600000x128_1_0_0_1_wf : ScatterDims.WF S100000x128 S1600000x1 S1600000x128 [1] [0] [0] 1 := by decide
theorem gather_S100000x64_S1600000x1_S1600000x64_1_0_n_n_0_1_164_wf : GatherDims.WF S100000x64 S1600000x1 S1600000x64 [1] [0] [] [0] [] 1 ![1, 64] := by decide
theorem scatter_S100000x64_S1600000x1_S1600000x64_1_0_0_1_wf : ScatterDims.WF S100000x64 S1600000x1 S1600000x64 [1] [0] [0] 1 := by decide
theorem scatter_S64_S100000x1_S100000_n_0_0_1_wf : ScatterDims.WF S64 S100000x1 S100000 [] [0] [0] 1 := by decide
theorem dot_S64x64_S64x1_S64x1_1_0_0_1_n_n_wf : DotDims.WF S64x64 S64x1 S64x1 [1] [0] [0] [1] [] [] := by decide
theorem dot_S100000x384_S384x64_S100000x64_1_0_0_1_n_n_wf : DotDims.WF S100000x384 S384x64 S100000x64 [1] [0] [0] [1] [] [] := by decide
theorem dot_S100000x192_S192x64_S100000x64_1_0_0_1_n_n_wf : DotDims.WF S100000x192 S192x64 S100000x64 [1] [0] [0] [1] [] [] := by decide
theorem scatter_S64x64_S100000x1_S100000x64_1_0_0_1_wf : ScatterDims.WF S64x64 S100000x1 S100000x64 [1] [0] [0] 1 := by decide

abbrev scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
abbrev gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
abbrev scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
abbrev gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
abbrev scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
abbrev scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
abbrev dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
abbrev dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
abbrev dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
abbrev scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

variable {F : FTy → Type} [FloatOps F]

/-- The scalar `k` at the entries the mask marks, `x` at the others. -/
def whereC (c : IVec S100000x128 1) (k : FVec F S_ .f32) (x : FVec F S100000x128 .f32) : FVec F S100000x128 .f32 :=
  select c (broadcastInDim S100000x128 ![] bcast_S_S100000x128 k) x

def nanToNum1 (x : FVec F S100000x128 .f32) : FVec F S100000x128 .f32 :=
  whereC (cmpf .une x x) (constant (F := F) S_ .f32 0x00000000#32) x

def nanToNum2 (y : FVec F S100000x128 .f32) : FVec F S100000x128 .f32 :=
  whereC (cmpf .oeq y (broadcastInDim S100000x128 ![] bcast_S_S100000x128 (constant (F := F) S_ .f32 0x7F800000#32))) (constant (F := F) S_ .f32 0x7F7FFFFF#32) y

def nanToNum3 (y : FVec F S100000x128 .f32) : FVec F S100000x128 .f32 :=
  whereC (cmpf .oeq y (broadcastInDim S100000x128 ![] bcast_S_S100000x128 (constant (F := F) S_ .f32 0xFF800000#32))) (constant (F := F) S_ .f32 0xFF7FFFFF#32) y

/-- Every non-finite entry replaced: NaN by 0, +∞ by the largest finite value, −∞ by the smallest. -/
def nanToNum (x : FVec F S100000x128 .f32) : FVec F S100000x128 .f32 :=
  nanToNum3 (nanToNum2 (nanToNum1 x))

/-- Each node's `max(in-degree, 1)^(-1/2)`, as a column. -/
def normCol (dst : IVec S1600000 32) : FVec F S100000x1 .f32 :=
  broadcastInDim S100000x1 ![0] bcast_S100000_S100000x1_0
    (Host.powf
      (maximumf (broadcastInDim S100000 ![] bcast_S_S100000 (constant (F := F) S_ .f32 0x3F800000#32))
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 dst)
          (broadcastInDim S1600000 ![] bcast_S_S1600000 (constant (F := F) S_ .f32 0x3F800000#32))))
      (broadcastInDim S100000 ![] bcast_S_S100000 (constant (F := F) S_ .f32 0xBF000000#32)))

/-- Message passing once: `norm · Σ_{e : dst e = v} (norm · f)[src e]` at every node `v`. -/
def hop128 (norm : FVec F S100000x1 .f32) (src dst : IVec S1600000 32) (f : FVec F S100000x128 .f32) : FVec F S100000x128 .f32 :=
  mulf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128
        (mulf f (broadcastInDim S100000x128 ![0, 1] bcast_S100000x1_S100000x128_0_1 norm))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1 norm)

def hop64 (norm : FVec F S100000x1 .f32) (src dst : IVec S1600000 32) (f : FVec F S100000x64 .f32) : FVec F S100000x64 .f32 :=
  mulf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 dst)
      (Host.gather gather_S100000x64_S1600000x1_S1600000x64_1_0_n_n_0_1_164
        (mulf f (broadcastInDim S100000x64 ![0, 1] bcast_S100000x1_S100000x64_0_1 norm))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x64 ![0, 1] bcast_S100000x1_S100000x64_0_1 norm)

/-- The three row bands of a layer's weight. -/
def sliceA128 (W : FVec F S384x64 .f32) : FVec F S128x64 .f32 :=
  extractStridedSlice S128x64 ![0, 0] W slices_S384x64_S128x64_0_0
def sliceB128 (W : FVec F S384x64 .f32) : FVec F S128x64 .f32 :=
  extractStridedSlice S128x64 ![128, 0] W slices_S384x64_S128x64_128_0
def sliceC128 (W : FVec F S384x64 .f32) : FVec F S128x64 .f32 :=
  extractStridedSlice S128x64 ![256, 0] W slices_S384x64_S128x64_256_0

def sliceA64 (W : FVec F S192x64 .f32) : FVec F S64x64 .f32 :=
  extractStridedSlice S64x64 ![0, 0] W slices_S192x64_S64x64_0_0
def sliceB64 (W : FVec F S192x64 .f32) : FVec F S64x64 .f32 :=
  extractStridedSlice S64x64 ![64, 0] W slices_S192x64_S64x64_64_0
def sliceC64 (W : FVec F S192x64 .f32) : FVec F S64x64 .f32 :=
  extractStridedSlice S64x64 ![128, 0] W slices_S192x64_S64x64_128_0

def biasRow (b : FVec F S64 .f32) : FVec F S1x64 .f32 :=
  shapeCast S1x64 b shapeCasts_S64_S1x64

def gidCol (g : IVec S100000 32) : IVec S100000x1 32 :=
  shapeCast S100000x1 g shapeCasts_S100000_S100000x1

/-- `relu ([f0 | f1 | f2] · W + b)`: the layer with the three hops side by side. -/
def combRef128 (f0 f1 f2 : FVec F S100000x128 .f32) (W : FVec F S384x64 .f32) (b : FVec F S64 .f32) : FVec F S100000x64 .f32 :=
  maximumf
    (addf
      (Host.dotGeneral dot_S100000x384_S384x64_S100000x64_1_0_0_1_n_n none
        (concatenate S100000x384 1 [⟨S100000x128, f0⟩, ⟨S100000x128, f1⟩, ⟨S100000x128, f2⟩]
          concatenates_S100000x128_S100000x128_S100000x128_S100000x384_d1)
        W)
      (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

def combRef64 (f0 f1 f2 : FVec F S100000x64 .f32) (W : FVec F S192x64 .f32) (b : FVec F S64 .f32) : FVec F S100000x64 .f32 :=
  maximumf
    (addf
      (Host.dotGeneral dot_S100000x192_S192x64_S100000x64_1_0_0_1_n_n none
        (concatenate S100000x192 1 [⟨S100000x64, f0⟩, ⟨S100000x64, f1⟩, ⟨S100000x64, f2⟩]
          concatenates_S100000x64_S100000x64_S100000x64_S100000x192_d1)
        W)
      (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- Row `v` collects the node rows whose graph id is `v`, by scatter-add. -/
def poolRef (h : FVec F S100000x64 .f32) (g : IVec S100000 32) : FVec F S64x64 .f32 :=
  Host.scatterAdd scatter_S64x64_S100000x1_S100000x64_1_0_0_1
    (broadcastInDim S64x64 ![] bcast_S_S64x64 (constant (F := F) S_ .f32 0x00000000#32))
    (broadcastInDim S100000x1 ![0] bcast_S100000_S100000x1_0 g)
    h

/-- Mean per graph (`sum / max(count, 1)`), then `· Wc + bc`. -/
def tail (hsum : FVec F S64x64 .f32) (g : IVec S100000 32) (Wc : FVec F S64x1 .f32) (bc : FVec F S1 .f32) : FVec F S64x1 .f32 :=
  addf
    (Host.dotGeneral dot_S64x64_S64x1_S64x1_1_0_0_1_n_n none
      (Host.divf hsum
        (broadcastInDim S64x64 ![0, 1] bcast_S64x1_S64x64_0_1
          (broadcastInDim S64x1 ![0] bcast_S64_S64x1_0
            (maximumf (broadcastInDim S64 ![] bcast_S_S64 (constant (F := F) S_ .f32 0x3F800000#32))
              (Host.scatterAdd scatter_S64_S100000x1_S100000_n_0_0_1
                (broadcastInDim S64 ![] bcast_S_S64 (constant (F := F) S_ .f32 0x00000000#32))
                (broadcastInDim S100000x1 ![0] bcast_S100000_S100000x1_0 g)
                (broadcastInDim S100000 ![] bcast_S_S100000 (constant (F := F) S_ .f32 0x3F800000#32)))))))
      Wc)
    (broadcastInDim S64x1 ![0, 1] bcast_S1x1_S64x1_0_1 (broadcastInDim S1x1 ![1] bcast_S1_S1x1_1 bc))

/-- `relu (f0 · W0 + f1 · W1 + f2 · W2 + b)`: the layer hop by hop. -/
def combKer128 (f0 f1 f2 : FVec Ideal S100000x128 .f32) (W0 W1 W2 : FVec Ideal S128x64 .f32) (b : FVec Ideal S1x64 .f32) : FVec Ideal S100000x64 .f32 :=
  fun i => max ((((∑ k : Fin 128, f0 (ix2 (i 0) k) * W0 (ix2 k (i 1))) + (∑ k : Fin 128, f1 (ix2 (i 0) k) * W1 (ix2 k (i 1)))) + (∑ k : Fin 128, f2 (ix2 (i 0) k) * W2 (ix2 k (i 1)))) + b (ix2 0 (i 1))) 0

def combKer64 (f0 f1 f2 : FVec Ideal S100000x64 .f32) (W0 W1 W2 : FVec Ideal S64x64 .f32) (b : FVec Ideal S1x64 .f32) : FVec Ideal S100000x64 .f32 :=
  fun i => max ((((∑ k : Fin 64, f0 (ix2 (i 0) k) * W0 (ix2 k (i 1))) + (∑ k : Fin 64, f1 (ix2 (i 0) k) * W1 (ix2 k (i 1)))) + (∑ k : Fin 64, f2 (ix2 (i 0) k) * W2 (ix2 k (i 1)))) + b (ix2 0 (i 1))) 0

def onehot (g : BitVec 32) (j : Fin 64) : EReal := if g = BitVec.ofNat 32 j.val then 1 else 0

/-- `onehotᵀ · h`: row `v` collects the node rows whose graph id is `v`. -/
def poolKer (h : FVec Ideal S100000x64 .f32) (g2 : IVec S100000x1 32) : FVec Ideal S64x64 .f32 :=
  fun i => ∑ r : Fin 100000, onehot (g2 (ix2 r 0)) (i 0) * h (ix2 r (i 1))

/-- The tiled program's result as a function of its twelve arguments. -/
def kerFn (x : FVec Ideal S100000x128 .f32) (W1 : FVec Ideal S384x64 .f32) (b1 : FVec Ideal S64 .f32) (W2 : FVec Ideal S192x64 .f32) (b2 : FVec Ideal S64 .f32) (W3 : FVec Ideal S192x64 .f32) (b3 : FVec Ideal S64 .f32) (Wc : FVec Ideal S64x1 .f32) (bc : FVec Ideal S1 .f32) (src dst : IVec S1600000 32) (gid : IVec S100000 32) : FVec Ideal S64x1 .f32 :=
  tail (poolKer (combKer64 (combKer64 (combKer128 (nanToNum x) (hop128 (normCol dst) src dst (nanToNum x)) (hop128 (normCol dst) src dst (hop128 (normCol dst) src dst (nanToNum x))) (sliceA128 W1) (sliceB128 W1) (sliceC128 W1) (biasRow b1)) (hop64 (normCol dst) src dst (combKer128 (nanToNum x) (hop128 (normCol dst) src dst (nanToNum x)) (hop128 (normCol dst) src dst (hop128 (normCol dst) src dst (nanToNum x))) (sliceA128 W1) (sliceB128 W1) (sliceC128 W1) (biasRow b1))) (hop64 (normCol dst) src dst (hop64 (normCol dst) src dst (combKer128 (nanToNum x) (hop128 (normCol dst) src dst (nanToNum x)) (hop128 (normCol dst) src dst (hop128 (normCol dst) src dst (nanToNum x))) (sliceA128 W1) (sliceB128 W1) (sliceC128 W1) (biasRow b1)))) (sliceA64 W2) (sliceB64 W2) (sliceC64 W2) (biasRow b2)) (hop64 (normCol dst) src dst (combKer64 (combKer128 (nanToNum x) (hop128 (normCol dst) src dst (nanToNum x)) (hop128 (normCol dst) src dst (hop128 (normCol dst) src dst (nanToNum x))) (sliceA128 W1) (sliceB128 W1) (sliceC128 W1) (biasRow b1)) (hop64 (normCol dst) src dst (combKer128 (nanToNum x) (hop128 (normCol dst) src dst (nanToNum x)) (hop128 (normCol dst) src dst (hop128 (normCol dst) src dst (nanToNum x))) (sliceA128 W1) (sliceB128 W1) (sliceC128 W1) (biasRow b1))) (hop64 (normCol dst) src dst (hop64 (normCol dst) src dst (combKer128 (nanToNum x) (hop128 (normCol dst) src dst (nanToNum x)) (hop128 (normCol dst) src dst (hop128 (normCol dst) src dst (nanToNum x))) (sliceA128 W1) (sliceB128 W1) (sliceC128 W1) (biasRow b1)))) (sliceA64 W2) (sliceB64 W2) (sliceC64 W2) (biasRow b2))) (hop64 (normCol dst) src dst (hop64 (normCol dst) src dst (combKer64 (combKer128 (nanToNum x) (hop128 (normCol dst) src dst (nanToNum x)) (hop128 (normCol dst) src dst (hop128 (normCol dst) src dst (nanToNum x))) (sliceA128 W1) (sliceB128 W1) (sliceC128 W1) (biasRow b1)) (hop64 (normCol dst) src dst (combKer128 (nanToNum x) (hop128 (normCol dst) src dst (nanToNum x)) (hop128 (normCol dst) src dst (hop128 (normCol dst) src dst (nanToNum x))) (sliceA128 W1) (sliceB128 W1) (sliceC128 W1) (biasRow b1))) (hop64 (normCol dst) src dst (hop64 (normCol dst) src dst (combKer128 (nanToNum x) (hop128 (normCol dst) src dst (nanToNum x)) (hop128 (normCol dst) src dst (hop128 (normCol dst) src dst (nanToNum x))) (sliceA128 W1) (sliceB128 W1) (sliceC128 W1) (biasRow b1)))) (sliceA64 W2) (sliceB64 W2) (sliceC64 W2) (biasRow b2)))) (sliceA64 W3) (sliceB64 W3) (sliceC64 W3) (biasRow b3)) (gidCol gid)) gid Wc bc

/-- The array program's result as a function of the same arguments. -/
def refFn (x : FVec Ideal S100000x128 .f32) (W1 : FVec Ideal S384x64 .f32) (b1 : FVec Ideal S64 .f32) (W2 : FVec Ideal S192x64 .f32) (b2 : FVec Ideal S64 .f32) (W3 : FVec Ideal S192x64 .f32) (b3 : FVec Ideal S64 .f32) (Wc : FVec Ideal S64x1 .f32) (bc : FVec Ideal S1 .f32) (src dst : IVec S1600000 32) (gid : IVec S100000 32) : FVec Ideal S64x1 .f32 :=
  tail (poolRef (combRef64 (combRef64 (combRef128 (nanToNum x) (hop128 (normCol dst) src dst (nanToNum x)) (hop128 (normCol dst) src dst (hop128 (normCol dst) src dst (nanToNum x))) W1 b1) (hop64 (normCol dst) src dst (combRef128 (nanToNum x) (hop128 (normCol dst) src dst (nanToNum x)) (hop128 (normCol dst) src dst (hop128 (normCol dst) src dst (nanToNum x))) W1 b1)) (hop64 (normCol dst) src dst (hop64 (normCol dst) src dst (combRef128 (nanToNum x) (hop128 (normCol dst) src dst (nanToNum x)) (hop128 (normCol dst) src dst (hop128 (normCol dst) src dst (nanToNum x))) W1 b1))) W2 b2) (hop64 (normCol dst) src dst (combRef64 (combRef128 (nanToNum x) (hop128 (normCol dst) src dst (nanToNum x)) (hop128 (normCol dst) src dst (hop128 (normCol dst) src dst (nanToNum x))) W1 b1) (hop64 (normCol dst) src dst (combRef128 (nanToNum x) (hop128 (normCol dst) src dst (nanToNum x)) (hop128 (normCol dst) src dst (hop128 (normCol dst) src dst (nanToNum x))) W1 b1)) (hop64 (normCol dst) src dst (hop64 (normCol dst) src dst (combRef128 (nanToNum x) (hop128 (normCol dst) src dst (nanToNum x)) (hop128 (normCol dst) src dst (hop128 (normCol dst) src dst (nanToNum x))) W1 b1))) W2 b2)) (hop64 (normCol dst) src dst (hop64 (normCol dst) src dst (combRef64 (combRef128 (nanToNum x) (hop128 (normCol dst) src dst (nanToNum x)) (hop128 (normCol dst) src dst (hop128 (normCol dst) src dst (nanToNum x))) W1 b1) (hop64 (normCol dst) src dst (combRef128 (nanToNum x) (hop128 (normCol dst) src dst (nanToNum x)) (hop128 (normCol dst) src dst (hop128 (normCol dst) src dst (nanToNum x))) W1 b1)) (hop64 (normCol dst) src dst (hop64 (normCol dst) src dst (combRef128 (nanToNum x) (hop128 (normCol dst) src dst (nanToNum x)) (hop128 (normCol dst) src dst (hop128 (normCol dst) src dst (nanToNum x))) W1 b1))) W2 b2))) W3 b3) gid) gid Wc bc

end Cert.Spec

end
-- ==== Proof.KI.HostRead.lean ====
import proofs.«408660_j24927990186433_1_alg».proof.Proof.Gen.KernelIdeal.Launch
import proofs.«408660_j24927990186433_1_alg».proof.Proof.Gen.KernelIdeal.Regions
import proofs.«408660_j24927990186433_1_alg».proof.Proof.Spec
import Idealize.ShloMosaic.Lib.StableHlo.Run

set_option maxRecDepth 16384

noncomputable section

namespace Cert.KernelIdeal.Hand

open Idealize.ShloMosaic Idealize.ShloMosaic.TcCoe
open Cert.KernelIdeal Cert.KernelIdeal.Gen

variable {F : FTy → Type} [FloatOps F]

section
variable (W : Valuation τ sig (Elt F))

-- Each buffer a later item reads is its operations' term over the stretch's entry contents.
local notation "VA" => StableHlo.after hostOps0_3 (StableHlo.after hostOps0_2 (StableHlo.after hostOps0_1 (StableHlo.after hostOps0 W)))

theorem readA_v0 : VA main_v0 = Spec.nanToNum (W main_arg0) := by
  after_results_simp
  rfl

theorem readA_v8 : VA main_v8 = Spec.normCol (W main_arg10) := by
  after_results_simp
  rfl

theorem readA_v22 : VA main_v22 = Spec.hop128 (VA main_v8) (W main_arg9) (W main_arg10) (VA main_v0) := by
  after_results_simp
  rfl

theorem readA_v36 : VA main_v36 = Spec.hop128 (VA main_v8) (W main_arg9) (W main_arg10) (VA main_v22) := by
  after_results_simp
  rfl

theorem readA_v37 : VA main_v37 = Spec.sliceA128 (W main_arg1) := by
  after_results_simp
  rfl

theorem readA_v38 : VA main_v38 = Spec.sliceB128 (W main_arg1) := by
  after_results_simp
  rfl

theorem readA_v39 : VA main_v39 = Spec.sliceC128 (W main_arg1) := by
  after_results_simp
  rfl

theorem readA_v40 : VA main_v40 = Spec.biasRow (W main_arg2) := by
  after_results_simp
  rfl

local notation "VB1" => StableHlo.after hostOps1 W

theorem readB1_v55 : VB1 main_v55 = Spec.hop64 (W main_v8) (W main_arg9) (W main_arg10) (W main_v41) := by
  after_results_simp
  rfl

theorem readB1_v69 : VB1 main_v69 = Spec.hop64 (W main_v8) (W main_arg9) (W main_arg10) (VB1 main_v55) := by
  after_results_simp
  rfl

theorem readB1_v70 : VB1 main_v70 = Spec.sliceA64 (W main_arg3) := by
  after_results_simp
  rfl

theorem readB1_v71 : VB1 main_v71 = Spec.sliceB64 (W main_arg3) := by
  after_results_simp
  rfl

theorem readB1_v72 : VB1 main_v72 = Spec.sliceC64 (W main_arg3) := by
  after_results_simp
  rfl

theorem readB1_v73 : VB1 main_v73 = Spec.biasRow (W main_arg4) := by
  after_results_simp
  rfl

local notation "VB2" => StableHlo.after hostOps2 W

theorem readB2_v88 : VB2 main_v88 = Spec.hop64 (W main_v8) (W main_arg9) (W main_arg10) (W main_v74) := by
  after_results_simp
  rfl

theorem readB2_v102 : VB2 main_v102 = Spec.hop64 (W main_v8) (W main_arg9) (W main_arg10) (VB2 main_v88) := by
  after_results_simp
  rfl

theorem readB2_v103 : VB2 main_v103 = Spec.sliceA64 (W main_arg5) := by
  after_results_simp
  rfl

theorem readB2_v104 : VB2 main_v104 = Spec.sliceB64 (W main_arg5) := by
  after_results_simp
  rfl

theorem readB2_v105 : VB2 main_v105 = Spec.sliceC64 (W main_arg5) := by
  after_results_simp
  rfl

theorem readB2_v106 : VB2 main_v106 = Spec.biasRow (W main_arg6) := by
  after_results_simp
  rfl

theorem readB3 : StableHlo.after hostOps3 W main_v108 = Spec.gidCol (W main_arg11) := by
  after_results_simp
  rfl

theorem readT :
    StableHlo.after hostOps4_2 (StableHlo.after hostOps4_1 (StableHlo.after hostOps4 W)) main_v121
      = Spec.tail (W main_v109) (W main_arg11) (W main_arg7) (W main_arg8) := by
  after_results_simp
  rfl

end
end Cert.KernelIdeal.Hand
-- ==== Proof.LibDotRowsCols.lean ====
import Idealize.ShloMosaic.Lib.StackMember
import Idealize.ShloMosaic.Lib.ValueLayout

noncomputable section

open scoped BigOperators

namespace Cert.Lib.DotRowsCols

open Idealize.ShloMosaic Idealize.ShloMosaic.ValueIdx Idealize.ShloMosaic.Pipeline

abbrev Ix (a b : ℕ) : Type := (⟨2, ![a, b]⟩ : Shape).Idx

variable {R B K C : ℕ}

/-- A product into a zero accumulator is, at an entry, the sum over the shared coordinate. -/
theorem matmul_plain_zero_apply {φ₁ φ₂ : FTy} (prec : Option ContractPrecision) (l : FVec Ideal ⟨2, ![B, K]⟩ φ₁)
    (w : FVec Ideal ⟨2, ![K, C]⟩ φ₂) (p : Fin B) (q : Fin C) :
    matmul (DotDims.plain B K C) prec l w (constant ⟨2, ![B, C]⟩ .f32 0x00000000#32) (ix2 p q)
      = ∑ k : Fin K, l (ix2 p k) * w (ix2 k q) :=
  (congrFun (matmul_zero_eq_dotGeneral _ prec l w) _).trans (StackMember.dotGeneral_plain_apply prec l w p q)

/-- relu (f0·W0 + f1·W1 + f2·W2 + b), entry by entry, the sums over the K shared coordinates. -/
def comb3 (f0 f1 f2 : Ix R K → EReal) (W0 W1 W2 : Ix K C → EReal) (b : Ix 1 C → EReal) : Ix R C → EReal := fun i =>
  max ((((∑ k : Fin K, f0 (ix2 (i 0) k) * W0 (ix2 k (i 1))) + (∑ k : Fin K, f1 (ix2 (i 0) k) * W1 (ix2 k (i 1))))
    + (∑ k : Fin K, f2 (ix2 (i 0) k) * W2 (ix2 k (i 1)))) + b (ix2 0 (i 1))) 0

/-- Three products into zero, added left to right, plus the bias row on every row, cut off below at zero. -/
theorem comb3_ops {φ₁ φ₂ : FTy} (prec : Option ContractPrecision) (x0 x1 x2 : FVec Ideal ⟨2, ![B, K]⟩ φ₁)
    (w0 w1 w2 : FVec Ideal ⟨2, ![K, C]⟩ φ₂) (b : FVec Ideal ⟨2, ![1, C]⟩ .f32)
    (h : (⟨2, ![1, C]⟩ : Shape).Broadcasts ⟨2, ![B, C]⟩) :
    maximumf (addf (addf (addf (matmul (DotDims.plain B K C) prec x0 w0 (constant _ .f32 0x00000000#32))
        (matmul (DotDims.plain B K C) prec x1 w1 (constant _ .f32 0x00000000#32)))
        (matmul (DotDims.plain B K C) prec x2 w2 (constant _ .f32 0x00000000#32))) (broadcastTo _ b h))
      (broadcast _ (Scalar.ofBits .f32 0x00000000#32)) = comb3 x0 x1 x2 w0 w1 w2 b := by
  funext j
  obtain ⟨p, q, rfl⟩ : ∃ p q, j = ix2 p q := ⟨j 0, j 1, eq_ix2 j⟩
  rw [maximumf_apply, addf_apply, addf_apply, addf_apply, broadcast_apply, matmul_plain_zero_apply,
    matmul_plain_zero_apply, matmul_plain_zero_apply, broadcastTo_1b_ab_apply]
  exact congrArg (max _) Ideal.ofBits_zero_f32

/-- `e` sends entry (p, k) of a block to entry (o + p, k) of the array. -/
def RowsAt (o : ℕ) (e : Ix B K → Ix R K) : Prop := ∀ y, (e y 0 : ℕ) = o + y 0 ∧ (e y 1 : ℕ) = y 1

/-- A block with index (i, 0) lies i block heights down its array, in the same columns. -/
theorem rows {sig : RefSig} {G : Grid} (w : Window sig G) (t : Fin G.N) {a0 a1 : Fin w.shape.rank} {i : ℕ}
    (h : w.index t a0 = i ∧ w.index t a1 = 0) (y : (w.xblock (G.coords t)).Idx) :
    ((w.rect t).emb y a0 : ℕ) = i * w.size a0 + y a0 ∧ ((w.rect t).emb y a1 : ℕ) = y a1 :=
  ⟨(w.rect_emb_val t y a0).trans (by rw [h.1]), w.rect_emb_val_of_index_zero t a1 h.2 y⟩

theorem RowsAt.apply {o : ℕ} {e : Ix B K → Ix R K} (h : RowsAt o e) (p : Fin B) (k : Fin K) (r : Fin R)
    (hr : (r : ℕ) = o + p) : e (ix2 p k) = ix2 r k :=
  Shape.idx_ext₂ ((h _).1.trans hr.symm) (h _).2

/-- Over blocks lying in their arrays at one row offset, weights and bias whole, it is the arrays' at the output block's place. -/
theorem comb3_blocks {o : ℕ} (f0 f1 f2 : Ix R K → EReal) (W0 W1 W2 : Ix K C → EReal) (b : Ix 1 C → EReal)
    {e0 e1 e2 : Ix B K → Ix R K} {u0 u1 u2 : Ix K C → Ix K C} {v : Ix 1 C → Ix 1 C} {E : Ix B C → Ix R C}
    (h0 : RowsAt o e0) (h1 : RowsAt o e1) (h2 : RowsAt o e2) (g0 : RowsAt 0 u0) (g1 : RowsAt 0 u1) (g2 : RowsAt 0 u2)
    (hv : RowsAt 0 v) (hE : RowsAt o E) (y : Ix B C) :
    comb3 (f0 ∘ e0) (f1 ∘ e1) (f2 ∘ e2) (W0 ∘ u0) (W1 ∘ u1) (W2 ∘ u2) (b ∘ v) y = comb3 f0 f1 f2 W0 W1 W2 b (E y) := by
  have hr := (hE y).1
  have hc : E y 1 = y 1 := Fin.ext (hE y).2
  simp only [comb3, Function.comp, hc, fun k => h0.apply (y 0) k (E y 0) hr, fun k => h1.apply (y 0) k (E y 0) hr,
    fun k => h2.apply (y 0) k (E y 0) hr, fun k => g0.apply k (y 1) k (Nat.zero_add _).symm,
    fun k => g1.apply k (y 1) k (Nat.zero_add _).symm, fun k => g2.apply k (y 1) k (Nat.zero_add _).symm,
    hv.apply 0 (y 1) 0 (Nat.zero_add _).symm]

/-- Blocks of B rows at the offsets 0, B, 2B, … reach every row below N·B. -/
theorem RowsAt.cover {N : ℕ} (hR : R = N * B) {E : Fin N → Ix B C → Ix R C} (hE : ∀ t, RowsAt (t.val * B) (E t))
    (i : Ix R C) : ∃ t y, E t y = i := by
  have hi : (i 0).val < N * B := Nat.lt_of_lt_of_eq (i 0).isLt hR
  have hB : 0 < B := Nat.pos_of_ne_zero fun h => by rw [h, Nat.mul_zero] at hi; exact Nat.not_lt_zero _ hi
  exact ⟨⟨(i 0).val / B, (Nat.div_lt_iff_lt_mul hB).mpr hi⟩, ix2 ⟨(i 0).val % B, Nat.mod_lt _ hB⟩ (i 1),
    ((hE _).apply _ _ (i 0) (Nat.div_add_mod' _ _).symm).trans (eq_ix2 i).symm⟩

end Cert.Lib.DotRowsCols

end
-- ==== Proof.KI.Value0.lean ====
import proofs.«408660_j24927990186433_1_alg».proof.Proof.KI.Comb0
import proofs.«408660_j24927990186433_1_alg».proof.Proof.Spec
import proofs.«408660_j24927990186433_1_alg».proof.Proof.LibDotRowsCols

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Lib.DotRowsCols

theorem pay0_eq (x0 x1 x2 : Vec Ideal S5000x128 .f32) (w0 w1 w2 : Vec Ideal S128x64 .f32) (b : Vec Ideal S1x64 .f32) :
    k0_pay1 x0 x1 x2 w0 w1 w2 b = comb3 x0 x1 x2 w0 w1 w2 b := by
  unfold k0_pay1
  simp only [shapeCast_self]
  exact comb3_ops none _ _ _ _ _ _ _ _

/-- The feature windows and the output window sit at row block t; the weight slices and the bias row are whole. -/
theorem idx0 : ∀ (t : Fin cfg0.N) (w : Fin cfg0.W) (a : Fin (cfg0.win w).shape.rank),
    (cfg0.win w).index t a = if a.val = 0 ∧ w.val ∉ [3, 4, 5, 6] then t.val else 0 := by decide +kernel

/-- Twenty blocks of 5000 rows cover the array, and point t writes block t of the rectified sum of the arrays the region finds. -/
theorem value0 (V : (c : Dev nD) → (b : Ref sig .tc) → Buf (Elt Ideal) ((c : Thread nD τ).loc b)) (c : Dev nD) :
    (dat0 (F := Ideal) V c).arrAt 7 cfg0.N
      = Spec.combKer128 (V c main_v0) (V c main_v22) (V c main_v36) (V c main_v37) (V c main_v38) (V c main_v39) (V c main_v40) := by
  refine (dat0 V c).arrAt_eq_of_cover 7 _ (fun t _ => ?_) fun i => ?_
  · show (cfg0.win 7).cut (grid0.coords t) ((dat0 V c).after 7 t) = _
    rw [after0_7, out0_7_eq, pay0_eq]
    exact funext (comb3_blocks (B := 5000) (K := 128) (V c main_v0) (V c main_v22) (V c main_v36) (V c main_v37) (V c main_v38) (V c main_v39) (V c main_v40)
      (rows (cfg0.win 0) t ⟨idx0 t 0 0, idx0 t 0 1⟩)
      (rows (cfg0.win 1) t ⟨idx0 t 1 0, idx0 t 1 1⟩)
      (rows (cfg0.win 2) t ⟨idx0 t 2 0, idx0 t 2 1⟩)
      (rows (cfg0.win 3) t ⟨idx0 t 3 0, idx0 t 3 1⟩)
      (rows (cfg0.win 4) t ⟨idx0 t 4 0, idx0 t 4 1⟩)
      (rows (cfg0.win 5) t ⟨idx0 t 5 0, idx0 t 5 1⟩)
      (rows (cfg0.win 6) t ⟨idx0 t 6 0, idx0 t 6 1⟩)
      (rows (cfg0.win 7) t ⟨idx0 t 7 0, idx0 t 7 1⟩))
  · obtain ⟨t, y, rfl⟩ := RowsAt.cover (N := 20) (B := 5000) rfl
      (fun t => rows (cfg0.win 7) t ⟨idx0 t 7 0, idx0 t 7 1⟩) i
    exact ⟨t, flush0_7 t, View.emb_mem_set _ y⟩

end Cert.KernelIdeal.Hand

end
-- ==== Proof.KI.Value1.lean ====
import proofs.«408660_j24927990186433_1_alg».proof.Proof.KI.Comb1
import proofs.«408660_j24927990186433_1_alg».proof.Proof.Spec
import proofs.«408660_j24927990186433_1_alg».proof.Proof.LibDotRowsCols

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Lib.DotRowsCols

theorem pay1_eq (x0 x1 x2 : Vec Ideal S5000x64 .f32) (w0 w1 w2 : Vec Ideal S64x64 .f32) (b : Vec Ideal S1x64 .f32) :
    k1_pay1 x0 x1 x2 w0 w1 w2 b = comb3 x0 x1 x2 w0 w1 w2 b := by
  unfold k1_pay1
  simp only [shapeCast_self]
  exact comb3_ops none _ _ _ _ _ _ _ _

/-- The feature windows and the output window sit at row block t; the weight slices and the bias row are whole. -/
theorem idx1 : ∀ (t : Fin cfg1.N) (w : Fin cfg1.W) (a : Fin (cfg1.win w).shape.rank),
    (cfg1.win w).index t a = if a.val = 0 ∧ w.val ∉ [3, 4, 5, 6] then t.val else 0 := by decide +kernel

/-- Twenty blocks of 5000 rows cover the array, and point t writes block t of the rectified sum of the arrays the region finds. -/
theorem value1 (V : (c : Dev nD) → (b : Ref sig .tc) → Buf (Elt Ideal) ((c : Thread nD τ).loc b)) (c : Dev nD) :
    (dat1 (F := Ideal) V c).arrAt 7 cfg1.N
      = Spec.combKer64 (V c main_v41) (V c main_v55) (V c main_v69) (V c main_v70) (V c main_v71) (V c main_v72) (V c main_v73) := by
  refine (dat1 V c).arrAt_eq_of_cover 7 _ (fun t _ => ?_) fun i => ?_
  · show (cfg1.win 7).cut (grid1.coords t) ((dat1 V c).after 7 t) = _
    rw [after1_7, out1_7_eq, pay1_eq]
    exact funext (comb3_blocks (B := 5000) (K := 64) (V c main_v41) (V c main_v55) (V c main_v69) (V c main_v70) (V c main_v71) (V c main_v72) (V c main_v73)
      (rows (cfg1.win 0) t ⟨idx1 t 0 0, idx1 t 0 1⟩)
      (rows (cfg1.win 1) t ⟨idx1 t 1 0, idx1 t 1 1⟩)
      (rows (cfg1.win 2) t ⟨idx1 t 2 0, idx1 t 2 1⟩)
      (rows (cfg1.win 3) t ⟨idx1 t 3 0, idx1 t 3 1⟩)
      (rows (cfg1.win 4) t ⟨idx1 t 4 0, idx1 t 4 1⟩)
      (rows (cfg1.win 5) t ⟨idx1 t 5 0, idx1 t 5 1⟩)
      (rows (cfg1.win 6) t ⟨idx1 t 6 0, idx1 t 6 1⟩)
      (rows (cfg1.win 7) t ⟨idx1 t 7 0, idx1 t 7 1⟩))
  · obtain ⟨t, y, rfl⟩ := RowsAt.cover (N := 20) (B := 5000) rfl
      (fun t => rows (cfg1.win 7) t ⟨idx1 t 7 0, idx1 t 7 1⟩) i
    exact ⟨t, flush1_7 t, View.emb_mem_set _ y⟩

end Cert.KernelIdeal.Hand

end
-- ==== Proof.KI.Value2.lean ====
import proofs.«408660_j24927990186433_1_alg».proof.Proof.KI.Comb2
import proofs.«408660_j24927990186433_1_alg».proof.Proof.Spec
import proofs.«408660_j24927990186433_1_alg».proof.Proof.LibDotRowsCols

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Lib.DotRowsCols

theorem pay2_eq (x0 x1 x2 : Vec Ideal S5000x64 .f32) (w0 w1 w2 : Vec Ideal S64x64 .f32) (b : Vec Ideal S1x64 .f32) :
    k2_pay1 x0 x1 x2 w0 w1 w2 b = comb3 x0 x1 x2 w0 w1 w2 b := by
  unfold k2_pay1
  simp only [shapeCast_self]
  exact comb3_ops none _ _ _ _ _ _ _ _

/-- The feature windows and the output window sit at row block t; the weight slices and the bias row are whole. -/
theorem idx2 : ∀ (t : Fin cfg2.N) (w : Fin cfg2.W) (a : Fin (cfg2.win w).shape.rank),
    (cfg2.win w).index t a = if a.val = 0 ∧ w.val ∉ [3, 4, 5, 6] then t.val else 0 := by decide +kernel

/-- Twenty blocks of 5000 rows cover the array, and point t writes block t of the rectified sum of the arrays the region finds. -/
theorem value2 (V : (c : Dev nD) → (b : Ref sig .tc) → Buf (Elt Ideal) ((c : Thread nD τ).loc b)) (c : Dev nD) :
    (dat2 (F := Ideal) V c).arrAt 7 cfg2.N
      = Spec.combKer64 (V c main_v74) (V c main_v88) (V c main_v102) (V c main_v103) (V c main_v104) (V c main_v105) (V c main_v106) := by
  refine (dat2 V c).arrAt_eq_of_cover 7 _ (fun t _ => ?_) fun i => ?_
  · show (cfg2.win 7).cut (grid2.coords t) ((dat2 V c).after 7 t) = _
    rw [after2_7, out2_7_eq, pay2_eq]
    exact funext (comb3_blocks (B := 5000) (K := 64) (V c main_v74) (V c main_v88) (V c main_v102) (V c main_v103) (V c main_v104) (V c main_v105) (V c main_v106)
      (rows (cfg2.win 0) t ⟨idx2 t 0 0, idx2 t 0 1⟩)
      (rows (cfg2.win 1) t ⟨idx2 t 1 0, idx2 t 1 1⟩)
      (rows (cfg2.win 2) t ⟨idx2 t 2 0, idx2 t 2 1⟩)
      (rows (cfg2.win 3) t ⟨idx2 t 3 0, idx2 t 3 1⟩)
      (rows (cfg2.win 4) t ⟨idx2 t 4 0, idx2 t 4 1⟩)
      (rows (cfg2.win 5) t ⟨idx2 t 5 0, idx2 t 5 1⟩)
      (rows (cfg2.win 6) t ⟨idx2 t 6 0, idx2 t 6 1⟩)
      (rows (cfg2.win 7) t ⟨idx2 t 7 0, idx2 t 7 1⟩))
  · obtain ⟨t, y, rfl⟩ := RowsAt.cover (N := 20) (B := 5000) rfl
      (fun t => rows (cfg2.win 7) t ⟨idx2 t 7 0, idx2 t 7 1⟩) i
    exact ⟨t, flush2_7 t, View.emb_mem_set _ y⟩

end Cert.KernelIdeal.Hand

end
-- ==== Proof.KI.Value3.lean ====
import proofs.«408660_j24927990186433_1_alg».proof.Proof.KI.Pool
import proofs.«408660_j24927990186433_1_alg».proof.Proof.Spec
import proofs.«408660_j24927990186433_1_alg».proof.Proof.LibDotRowsCols
import Mathlib.Algebra.BigOperators.Fin
import Mathlib.Logic.Equiv.Fin.Basic

set_option maxRecDepth 16384

noncomputable section

namespace Cert.KernelIdeal.Hand
open Idealize.ShloMosaic Idealize.ShloMosaic.TcCoe Idealize.ShloMosaic.ValueIdx
open Idealize.ShloMosaic.Pipeline (Dat Cfg Window)
open Cert.KernelIdeal Cert.KernelIdeal.Gen Cert.Lib.DotRowsCols
open scoped BigOperators

variable (V : (c : Dev nD) → (b : Ref sig .tc) → Buf (Elt Ideal) ((c : Thread nD τ).loc b))

namespace Value3

/-- The feature and id windows sit at row block t; the output window is whole. -/
theorem idx3 : ∀ (t : Fin cfg3.N) (w : Fin cfg3.W) (a : Fin (cfg3.win w).shape.rank),
    (cfg3.win w).index t a = if a.val = 0 ∧ w.val ≠ 2 then t.val else 0 := by decide +kernel

theorem pay1_apply (j : S64x64.Idx) : k3_pay1 (F := Ideal) j = 0 := by
  unfold k3_pay1
  simp only [shapeCast_self]
  exact Ideal.ofBits_zero_f32

theorem sitofp_bit (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · subst h; rw [if_pos rfl]; simp [IntOp.cmpi]
  · have hb : (x == y) = false := beq_eq_false_iff_ne.mpr h
    rw [if_neg h]; simp [IntOp.cmpi, hb]

theorem onehot_apply (gi : Vec Ideal S5000x1 .i32) (r : Fin 5000) (g : Fin 64) :
    (sitofp .f32 (extui 32 (cmpi .eq (broadcastTo S5000x64 gi broadcasts_S5000x1_S5000x64)
      (iota .tc S5000x64 32 [1] iota_S5000x64_d1_w32)) natLt_1_32) : FVec Ideal S5000x64 .f32) (ix2 r g)
      = Spec.onehot (gi (ix2 r 0)) g := by
  have hb : broadcastTo S5000x64 gi broadcasts_S5000x1_S5000x64 (ix2 r g) = gi (ix2 r 0) :=
    broadcastTo_apply gi broadcasts_S5000x1_S5000x64 (ix2 r g) (ix2 r 0) (fun a => by
      match a with
      | ⟨0, _⟩ => rfl
      | ⟨1, _⟩ => rfl)
  have hi : iota .tc S5000x64 32 [1] iota_S5000x64_d1_w32 (ix2 r g) = BitVec.ofNat 32 g.val :=
    iota_single_apply .tc S5000x64 32 1 iota_S5000x64_d1_w32 (ix2 r g)
  show FloatOps.sitofp .f32 ((IntOp.cmpi .eq (broadcastTo S5000x64 gi broadcasts_S5000x1_S5000x64 (ix2 r g))
      (iota .tc S5000x64 32 [1] iota_S5000x64_d1_w32 (ix2 r g))).setWidth 32) = _
  rw [hb, hi]
  unfold Spec.onehot
  exact sitofp_bit _ _

theorem mm_apply (A B : FVec Ideal S5000x64 .f32) (g d : Fin 64) :
    matmul dot_S5000x64_S5000x64_S64x64_0_0_1_1_n_n none A B (constant S64x64 .f32 0x00000000#32) (ix2 g d)
      = ∑ r : Fin 5000, A (ix2 r g) * B (ix2 r d) := by
  show FloatOps.matmul dot_S5000x64_S5000x64_S64x64_0_0_1_1_n_n none A B (constant S64x64 .f32 0x00000000#32) (ix2 g d) = _
  rw [Ideal.matmul_constant_zero_apply,
    ← Equiv.sum_comp (contrEquiv1 dot_S5000x64_S5000x64_S64x64_0_0_1_1_n_n 5000 rfl rfl).symm]
  refine Finset.sum_congr rfl fun r _ => ?_
  have c2 := contrEquiv1_symm_val dot_S5000x64_S5000x64_S64x64_0_0_1_1_n_n 5000 rfl rfl r
  have l2 : dot_S5000x64_S5000x64_S64x64_0_0_1_1_n_n.lhsIdx (ix2 g d) ((contrEquiv1 _ 5000 rfl rfl).symm r) = ix2 r g := by
    funext ax; apply Fin.ext
    match ax with
    | ⟨0, _⟩ => simp [DotDims.lhsIdx, dot_S5000x64_S5000x64_S64x64_0_0_1_1_n_n]; exact c2
    | ⟨1, _⟩ => simp [DotDims.lhsIdx, dot_S5000x64_S5000x64_S64x64_0_0_1_1_n_n]; rfl
  have r2 : dot_S5000x64_S5000x64_S64x64_0_0_1_1_n_n.rhsIdx (ix2 g d) ((contrEquiv1 _ 5000 rfl rfl).symm r) = ix2 r d := by
    funext ax; apply Fin.ext
    match ax with
    | ⟨0, _⟩ => simp [DotDims.rhsIdx, dot_S5000x64_S5000x64_S64x64_0_0_1_1_n_n]; exact c2
    | ⟨1, _⟩ => simp [DotDims.rhsIdx, dot_S5000x64_S5000x64_S64x64_0_0_1_1_n_n]; rfl
  rw [l2, r2]

theorem pay2_apply (x : Vec Ideal S5000x64 .f32) (gi : Vec Ideal S5000x1 .i32) (a : Vec Ideal S64x64 .f32) (g d : Fin 64) :
    k3_pay2 (F := Ideal) x gi a (ix2 g d)
      = a (ix2 g d) + ∑ r : Fin 5000, Spec.onehot (gi (ix2 r 0)) g * x (ix2 r d) := by
  unfold k3_pay2
  simp only [shapeCast_self]
  refine (addf_apply _ _ _).trans ?_
  refine congrArg (a (ix2 g d) + ·) ((mm_apply _ _ g d).trans (Finset.sum_congr rfl fun r _ => ?_))
  exact congrArg (· * x (ix2 r d)) (onehot_apply gi r g)

/-- Row r's term of entry (g, d): one where the row's graph id is g, times the row's feature d. -/
abbrev term (c : Dev nD) (g d : Fin 64) (r : Fin 100000) : EReal :=
  Spec.onehot (V c main_v108 (ix2 r 0)) g * V c main_v107 (ix2 r d)

def bsum (c : Dev nD) (g d : Fin 64) (s : ℕ) : EReal :=
  if h : s < 20 then ∑ q : Fin 5000, term V c g d ⟨s * 5000 + q.val, by have := q.isLt; omega⟩ else 0

theorem blk_sum (c : Dev nD) (t : Fin cfg3.N) (g d : Fin 64) :
    ∑ r : Fin 5000, Spec.onehot (iblk3 V c 1 t (ix2 r 0)) g * iblk3 V c 0 t (ix2 r d) = bsum V c g d t.val := by
  have ht : t.val < 20 := Nat.lt_of_lt_of_eq t.isLt N_3
  unfold bsum
  rw [dif_pos ht]
  exact Finset.sum_congr rfl fun r _ => congrArg₂ (fun a b => Spec.onehot (V c main_v108 a) g * V c main_v107 b)
    (RowsAt.apply (B := 5000) (K := 1) (R := 100000) (rows (cfg3.win 1) t ⟨idx3 t 1 0, idx3 t 1 1⟩) r 0 _ rfl)
    (RowsAt.apply (B := 5000) (K := 64) (R := 100000) (rows (cfg3.win 0) t ⟨idx3 t 0 0, idx3 t 0 1⟩) r d _ rfl)

theorem acc3_apply (c : Dev nD) (g d : Fin 64) : ∀ (n : ℕ) (hn : n < cfg3.N),
    acc3 V c n hn (ix2 g d) = ∑ s ∈ Finset.range (n + 1), bsum V c g d s
  | 0, hn => by
    rw [acc3_zero]
    refine (pay2_apply (iblk3 V c 0 ⟨0, hn⟩) (iblk3 V c 1 ⟨0, hn⟩) (k3_pay1 (F := Ideal)) g d).trans ?_
    rw [pay1_apply, zero_add, Finset.sum_range_one]
    exact blk_sum V c ⟨0, hn⟩ g d
  | n + 1, hn => by
    rw [acc3_succ]
    refine (pay2_apply (iblk3 V c 0 ⟨n + 1, hn⟩) (iblk3 V c 1 ⟨n + 1, hn⟩) (acc3 V c n (Nat.lt_of_succ_lt hn)) g d).trans ?_
    rw [acc3_apply c g d n (Nat.lt_of_succ_lt hn), Finset.sum_range_succ _ (n + 1)]
    exact congrArg (_ + ·) (blk_sum V c ⟨n + 1, hn⟩ g d)

def rowEquiv : Fin 20 × Fin 5000 ≃ Fin 100000 :=
  finProdFinEquiv.trans (finCongr (by norm_num))

theorem rowEquiv_val (s : Fin 20) (q : Fin 5000) : (rowEquiv (s, q)).val = s.val * 5000 + q.val := by
  show q.val + 5000 * s.val = _
  omega

theorem sum_blocks (c : Dev nD) (g d : Fin 64) :
    ∑ s ∈ Finset.range 20, bsum V c g d s = ∑ r : Fin 100000, term V c g d r := by
  rw [← Fin.sum_univ_eq_sum_range (bsum V c g d) 20, ← Equiv.sum_comp rowEquiv (term V c g d), Fintype.sum_prod_type]
  refine Finset.sum_congr rfl fun s _ => ?_
  unfold bsum
  rw [dif_pos s.isLt]
  refine Finset.sum_congr rfl fun q _ => ?_
  exact congrArg (term V c g d) (Fin.ext (rowEquiv_val s q).symm)

theorem t19_lt : 19 < cfg3.N := by rw [show cfg3.N = 20 from N_3]; decide

theorem acc3_last (c : Dev nD) : acc3 V c 19 t19_lt = Spec.poolKer (V c main_v107) (V c main_v108) := by
  funext j
  obtain ⟨g, d, rfl⟩ : ∃ g d : Fin 64, j = ix2 g d := ⟨j 0, j 1, eq_ix2 j⟩
  rw [acc3_apply V c g d 19 t19_lt]
  exact sum_blocks V c g d

/-- The output window's block is its whole array. -/
theorem whole3 (t : Fin cfg3.N) (y : S64x64.Idx) : ((cfg3.win 2).rect t).emb y = y :=
  have h := rows (cfg3.win 2) t ⟨idx3 t 2 0, idx3 t 2 1⟩ y
  Shape.idx_ext₂ (h.1.trans (Nat.zero_add _)) h.2

theorem flushed_eq3 (c : Dev nD) (t : Fin cfg3.N) (hf : (cfg3.win 2).flush t = true) :
    (dat3 V c).flushed 2 t = ((cfg3.win 2).blk t).view.read (Elt Ideal) (Spec.poolKer (V c main_v107) (V c main_v108)) := by
  have h19 : t.val = 19 := by have := (flush3_2 t).mp hf; have := Nat.lt_of_lt_of_eq t.isLt N_3; omega
  obtain rfl : t = ⟨19, t19_lt⟩ := Fin.ext h19
  show (cfg3.win 2).cut (grid3.coords ⟨19, t19_lt⟩) ((dat3 V c).after 2 ⟨19, t19_lt⟩) = _
  rw [after3_2, acc3_last]
  generalize Spec.poolKer (V c main_v107) (V c main_v108) = G
  exact funext fun y => (congrArg G (whole3 ⟨19, t19_lt⟩ y)).symm

end Value3

/-- The one writing point's block covers the array, and its accumulator holds the sum over every row. -/
theorem value3 (c : Dev nD) :
    (dat3 (F := Ideal) V c).arrAt 2 cfg3.N = Spec.poolKer (V c main_v107) (V c main_v108) :=
  (dat3 V c).arrAt_eq_of_cover 2 _ (Value3.flushed_eq3 V c) fun i =>
    ⟨⟨19, Value3.t19_lt⟩, (flush3_2 _).mpr rfl, by rw [← Value3.whole3 ⟨19, Value3.t19_lt⟩ i]; exact View.emb_mem_set _ i⟩

end Cert.KernelIdeal.Hand

end
-- ==== Proof.KI.Result.lean ====
import proofs.«408660_j24927990186433_1_alg».proof.Proof.KI.Segs
import proofs.«408660_j24927990186433_1_alg».proof.Proof.KI.HostRead
import proofs.«408660_j24927990186433_1_alg».proof.Proof.KI.Value0
import proofs.«408660_j24927990186433_1_alg».proof.Proof.KI.Value1
import proofs.«408660_j24927990186433_1_alg».proof.Proof.KI.Value2
import proofs.«408660_j24927990186433_1_alg».proof.Proof.KI.Value3

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

local notation "o" => outs (F := Ideal) m
local notation "SRC" => V0 m c main_arg9
local notation "DST" => V0 m c main_arg10

def nrm := Spec.normCol (F := Ideal) DST
def xs := Spec.nanToNum (F := Ideal) (V0 m c main_arg0)
def f1 := Spec.hop128 (nrm m c) SRC DST (xs m c)
def f2 := Spec.hop128 (nrm m c) SRC DST (f1 m c)
def h1 := Spec.combKer128 (xs m c) (f1 m c) (f2 m c) (Spec.sliceA128 (F := Ideal) (V0 m c main_arg1)) (Spec.sliceB128 (F := Ideal) (V0 m c main_arg1)) (Spec.sliceC128 (F := Ideal) (V0 m c main_arg1)) (Spec.biasRow (F := Ideal) (V0 m c main_arg2))
def hop (h : FVec Ideal Spec.S100000x64 .f32) := Spec.hop64 (nrm m c) SRC DST h
/-- A width-64 layer over an array: the array and its two hops against the weight matrix's three row blocks. -/
def layer (h : FVec Ideal Spec.S100000x64 .f32) (W : FVec Ideal Spec.S192x64 .f32) (b : FVec Ideal Spec.S64 .f32) :=
  Spec.combKer64 h (hop m c h) (hop m c (hop m c h)) (Spec.sliceA64 W) (Spec.sliceB64 W) (Spec.sliceC64 W) (Spec.biasRow b)
def h2 := layer m c (h1 m c) (V0 m c main_arg3) (V0 m c main_arg4)
def h3 := layer m c (h2 m c) (V0 m c main_arg5) (V0 m c main_arg6)

/-- A buffer that no stretch and no region writes holds its launch contents at every boundary. -/
theorem keep (r : Ref sig .tc)
    (h : (r ∉ hostOps0_W ∧ r ∉ hostOps0_1_W ∧ r ∉ hostOps0_2_W ∧ r ∉ hostOps0_3_W ∧ r ∉ ([main_v41] : List (Ref sig .tc)))
      ∧ (r ∉ hostOps1_W ∧ r ∉ ([main_v74] : List (Ref sig .tc))) ∧ (r ∉ hostOps2_W ∧ r ∉ ([main_v107] : List (Ref sig .tc)))
      ∧ r ∉ hostOps3_W ∧ r ∉ ([main_v109] : List (Ref sig .tc))) :
    V5 m o c r = V0 m c r ∧ V7 m o c r = V0 m c r ∧ V9 m o c r = V0 m c r ∧ V11 m o c r = V0 m c r := by
  obtain ⟨⟨h0, h1, h2, h3, h4⟩, ⟨h5, h6⟩, ⟨h7, h8⟩, h9, h10⟩ := h
  have e5 := (V5_of m o c r h4).trans ((V4_of m c r h3).trans ((V3_of m c r h2).trans ((V2_of m c r h1).trans (V1_of m c r h0))))
  have e7 := (V7_of m o c r h6).trans ((V6_of m o c r h5).trans e5)
  have e9 := (V9_of m o c r h8).trans ((V8_of m o c r h7).trans e7)
  exact ⟨e5, e7, e9, (V11_of m o c r h10).trans ((V10_of m o c r h9).trans e9)⟩

theorem e4_v0 : V4 m c main_v0 = xs m c := readA_v0 (V0 m c)
theorem e4_v8 : V4 m c main_v8 = nrm m c := readA_v8 (V0 m c)
theorem e4_v22 : V4 m c main_v22 = f1 m c := by
  refine (readA_v22 (V0 m c)).trans ?_
  rw [readA_v8 (V0 m c), readA_v0 (V0 m c)]; rfl
theorem e4_v36 : V4 m c main_v36 = f2 m c := by
  refine (readA_v36 (V0 m c)).trans ?_
  rw [readA_v22 (V0 m c), readA_v8 (V0 m c), readA_v0 (V0 m c)]; rfl

theorem e5_v41 : V5 m o c main_v41 = h1 m c := by
  refine (Function.update_self (f := V4 m c) _ _).trans ?_
  rw [outs5, value0, e4_v0, e4_v22, e4_v36, (show V4 m c main_v37 = _ from readA_v37 (V0 m c)), (show V4 m c main_v38 = _ from readA_v38 (V0 m c)),
    (show V4 m c main_v39 = _ from readA_v39 (V0 m c)), (show V4 m c main_v40 = _ from readA_v40 (V0 m c))]
  rfl

theorem e5_v8 : V5 m o c main_v8 = nrm m c := (V5_of m o c main_v8 (by decide)).trans (e4_v8 m c)

theorem e7_v74 : V7 m o c main_v74 = h2 m c := by
  refine (Function.update_self (f := V6 m o c) _ _).trans ?_
  rw [outs7, value1, V6_of m o c main_v41 (by decide)]
  rw [(show V6 m o c main_v69 = _ from readB1_v69 (V5 m o c)), (show V6 m o c main_v55 = _ from readB1_v55 (V5 m o c)), readB1_v55 (V5 m o c),
    (show V6 m o c main_v70 = _ from readB1_v70 (V5 m o c)), (show V6 m o c main_v71 = _ from readB1_v71 (V5 m o c)),
    (show V6 m o c main_v72 = _ from readB1_v72 (V5 m o c)), (show V6 m o c main_v73 = _ from readB1_v73 (V5 m o c)), e5_v8, e5_v41, (keep m c main_arg9 (by decide)).1, (keep m c main_arg10 (by decide)).1,
    (keep m c main_arg3 (by decide)).1, (keep m c main_arg4 (by decide)).1]
  rfl

theorem e7_v8 : V7 m o c main_v8 = nrm m c :=
  (V7_of m o c main_v8 (by decide)).trans ((V6_of m o c main_v8 (by decide)).trans (e5_v8 m c))

theorem e9_v107 : V9 m o c main_v107 = h3 m c := by
  refine (Function.update_self (f := V8 m o c) _ _).trans ?_
  rw [outs9, value2, V8_of m o c main_v74 (by decide)]
  rw [(show V8 m o c main_v102 = _ from readB2_v102 (V7 m o c)), (show V8 m o c main_v88 = _ from readB2_v88 (V7 m o c)), readB2_v88 (V7 m o c),
    (show V8 m o c main_v103 = _ from readB2_v103 (V7 m o c)), (show V8 m o c main_v104 = _ from readB2_v104 (V7 m o c)),
    (show V8 m o c main_v105 = _ from readB2_v105 (V7 m o c)), (show V8 m o c main_v106 = _ from readB2_v106 (V7 m o c)), e7_v8, e7_v74, (keep m c main_arg9 (by decide)).2.1, (keep m c main_arg10 (by decide)).2.1,
    (keep m c main_arg5 (by decide)).2.1, (keep m c main_arg6 (by decide)).2.1]
  rfl

theorem e11_v109 : V11 m o c main_v109 = Spec.poolKer (h3 m c) (Spec.gidCol (V0 m c main_arg11)) := by
  refine (Function.update_self (f := V10 m o c) _ _).trans ?_
  rw [outs11, value3, V10_of m o c main_v107 (by decide), e9_v107]
  exact congrArg (Spec.poolKer (h3 m c)) ((readB3 (V9 m o c)).trans (congrArg Spec.gidCol (keep m c main_arg11 (by decide)).2.2.1))

/-- The result buffer at the end of @main is the kernel program's function of the launch memory. -/
theorem result_eq : V14 m o c main_v121
    = Spec.kerFn (V0 m c main_arg0) (V0 m c main_arg1) (V0 m c main_arg2) (V0 m c main_arg3) (V0 m c main_arg4) (V0 m c main_arg5)
        (V0 m c main_arg6) (V0 m c main_arg7) (V0 m c main_arg8) (V0 m c main_arg9) (V0 m c main_arg10) (V0 m c main_arg11) := by
  refine (readT (V11 m o c)).trans ?_
  rw [e11_v109, (keep m c main_arg11 (by decide)).2.2.2, (keep m c main_arg7 (by decide)).2.2.2, (keep m c main_arg8 (by decide)).2.2.2]
  rfl

end Cert.KernelIdeal.Hand

end
-- ==== Proof.LibAfter.lean ====
import Idealize.ShloMosaic.Lib.StableHlo.Run

namespace Idealize.ShloMosaic.StableHlo

open Idealize.SL.Sem

variable {τ : Topo} {sig : RefSig} {Val : EltTy → Type}

/-- Operations that each write exactly one buffer, those buffers listed in `W`, leave every buffer outside `W` as it was. -/
theorem after_keep {l : List (HloOp τ sig Val)} (W : List (Ref sig .tc)) (V : Valuation τ sig Val) {r : Ref sig .tc}
    (hr : r ∉ W) (hW : List.Forall₂ (fun op y => op.writes = {Proc.devRef (τ := τ) .tc y}) l W := by repeat' constructor) :
    after l V (Proc.devRef .tc r) = V (Proc.devRef .tc r) := by
  induction hW generalizing V with
  | nil => rfl
  | @cons op y l W h _ ih =>
    rw [after_cons, ih _ fun h' => hr (List.mem_cons_of_mem _ h'), op.result_of_not_mem V]
    rw [h, Finset.mem_singleton]
    exact fun e => hr (List.mem_cons.mpr (.inl (Proc.devRef_injective _ e)))

end Idealize.ShloMosaic.StableHlo
-- ==== Proof.RI.Ops.lean ====
import proofs.«408660_j24927990186433_1_alg».proof.Proof.Gen.ReferenceIdeal
import proofs.«408660_j24927990186433_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The features with NaN, +∞ and −∞ replaced by finite values. -/
def nanOps : List (HloOp τ sig (Elt F)) :=
  [ StableHlo.binary main_arg0 main_arg0 main_call0_v0 (cmpf .une),
    StableHlo.nullary main_call0_cst (constant S_ .f32 0x00000000#32),
    StableHlo.unary main_call0_cst main_call0_call0_v0 (broadcastInDim S100000x128 ![] bcast_S_S100000x128),
    StableHlo.ternary main_call0_v0 main_call0_call0_v0 main_arg0 main_call0_v1 select,
    StableHlo.nullary main_call0_cst_0 (constant S_ .f32 0x7F800000#32),
    StableHlo.unary main_call0_cst_0 main_call0_v2 (broadcastInDim S100000x128 ![] bcast_S_S100000x128),
    StableHlo.binary main_call0_v1 main_call0_v2 main_call0_v3 (cmpf .oeq),
    StableHlo.nullary main_call0_cst_1 (constant S_ .f32 0x7F7FFFFF#32),
    StableHlo.unary main_call0_cst_1 main_call0_call1_v0 (broadcastInDim S100000x128 ![] bcast_S_S100000x128),
    StableHlo.ternary main_call0_v3 main_call0_call1_v0 main_call0_v1 main_call0_v4 select,
    StableHlo.nullary main_call0_cst_2 (constant S_ .f32 0xFF800000#32),
    StableHlo.unary main_call0_cst_2 main_call0_v5 (broadcastInDim S100000x128 ![] bcast_S_S100000x128),
    StableHlo.binary main_call0_v4 main_call0_v5 main_call0_v6 (cmpf .oeq),
    StableHlo.nullary main_call0_cst_3 (constant S_ .f32 0xFF7FFFFF#32),
    StableHlo.unary main_call0_cst_3 main_call0_call2_v0 (broadcastInDim S100000x128 ![] bcast_S_S100000x128),
    StableHlo.ternary main_call0_v6 main_call0_call2_v0 main_call0_v4 main_v0 select ]

/-- Every node's in-degree, clipped below at one, to the power −1/2, as a column. -/
def normOps : List (HloOp τ sig (Elt F)) :=
  [ StableHlo.nullary main_cst (constant S_ .f32 0x3F800000#32),
    StableHlo.unary main_cst main_v1 (broadcastInDim S1600000 ![] bcast_S_S1600000),
    StableHlo.nullary main_cst_0 (constant S_ .f32 0x00000000#32),
    StableHlo.unary main_cst_0 main_v2 (broadcastInDim S100000 ![] bcast_S_S100000),
    StableHlo.unary main_arg10 main_v3 (broadcastInDim S1600000x1 ![0] bcast_S1600000_S1600000x1_0),
    StableHlo.ternary main_v2 main_v3 main_v1 main_v4 (fun x i u => Host.scatterAdd scatter_S100000_S1600000x1_S1600000_n_0_0_1 x i u),
    StableHlo.nullary main_cst_1 (constant S_ .f32 0x3F800000#32),
    StableHlo.unary main_cst_1 main_call1_v0 id,
    StableHlo.unary main_call1_v0 main_call1_v1 (broadcastInDim S100000 ![] bcast_S_S100000),
    StableHlo.binary main_call1_v1 main_v4 main_v5 maximumf,
    StableHlo.nullary main_cst_2 (constant S_ .f32 0xBF000000#32),
    StableHlo.unary main_cst_2 main_v6 (broadcastInDim S100000 ![] bcast_S_S100000),
    StableHlo.binary main_v5 main_v6 main_v7 Host.powf,
    StableHlo.unary main_v7 main_v8 (broadcastInDim S100000x1 ![0] bcast_S100000_S100000x1_0) ]

/-- One propagation step at width 128: scale, gather at the sources, sum at the targets, scale. -/
def hop1Ops : List (HloOp τ sig (Elt F)) :=
  [ StableHlo.unary main_v8 main_v9 (broadcastInDim S100000x128 ![0, 1] bcast_S100000x1_S100000x128_0_1),
    StableHlo.binary main_v0 main_v9 main_v10 mulf,
    StableHlo.nullary main_c (constantI S_ 32 0#32),
    StableHlo.unary main_c main_v11 (broadcastInDim S1600000 ![] bcast_S_S1600000),
    StableHlo.binary main_arg9 main_v11 main_v12 (cmpi .slt),
    StableHlo.nullary main_c_3 (constantI S_ 32 100000#32),
    StableHlo.unary main_c_3 main_v13 (broadcastInDim S1600000 ![] bcast_S_S1600000),
    StableHlo.binary main_arg9 main_v13 main_v14 addi,
    StableHlo.ternary main_v12 main_v14 main_arg9 main_v15 select,
    StableHlo.unary main_v15 main_v16 (broadcastInDim S1600000x1 ![0] bcast_S1600000_S1600000x1_0),
    StableHlo.binary main_v10 main_v16 main_v17 (fun x i => Host.gather gather_S100000x128_S1600000x1_S1600000x128_1_0_n_n_0_1_1128 x i),
    StableHlo.nullary main_cst_4 (constant S_ .f32 0x00000000#32),
    StableHlo.unary main_cst_4 main_v18 (broadcastInDim S100000x128 ![] bcast_S_S100000x128),
    StableHlo.unary main_arg10 main_v19 (broadcastInDim S1600000x1 ![0] bcast_S1600000_S1600000x1_0),
    StableHlo.ternary main_v18 main_v19 main_v17 main_v20 (fun x i u => Host.scatterAdd scatter_S100000x128_S1600000x1_S1600000x128_1_0_0_1 x i u),
    StableHlo.unary main_v8 main_v21 (broadcastInDim S100000x128 ![0, 1] bcast_S100000x1_S100000x128_0_1),
    StableHlo.binary main_v20 main_v21 main_v22 mulf ]

/-- The second step at width 128. -/
def hop2Ops : List (HloOp τ sig (Elt F)) :=
  [ StableHlo.unary main_v8 main_v23 (broadcastInDim S100000x128 ![0, 1] bcast_S100000x1_S100000x128_0_1),
    StableHlo.binary main_v22 main_v23 main_v24 mulf,
    StableHlo.nullary main_c_5 (constantI S_ 32 0#32),
    StableHlo.unary main_c_5 main_v25 (broadcastInDim S1600000 ![] bcast_S_S1600000),
    StableHlo.binary main_arg9 main_v25 main_v26 (cmpi .slt),
    StableHlo.nullary main_c_6 (constantI S_ 32 100000#32),
    StableHlo.unary main_c_6 main_v27 (broadcastInDim S1600000 ![] bcast_S_S1600000),
    StableHlo.binary main_arg9 main_v27 main_v28 addi,
    StableHlo.ternary main_v26 main_v28 main_arg9 main_v29 select,
    StableHlo.unary main_v29 main_v30 (broadcastInDim S1600000x1 ![0] bcast_S1600000_S1600000x1_0),
    StableHlo.binary main_v24 main_v30 main_v31 (fun x i => Host.gather gather_S100000x128_S1600000x1_S1600000x128_1_0_n_n_0_1_1128 x i),
    StableHlo.nullary main_cst_7 (constant S_ .f32 0x00000000#32),
    StableHlo.unary main_cst_7 main_v32 (broadcastInDim S100000x128 ![] bcast_S_S100000x128),
    StableHlo.unary main_arg10 main_v33 (broadcastInDim S1600000x1 ![0] bcast_S1600000_S1600000x1_0),
    StableHlo.ternary main_v32 main_v33 main_v31 main_v34 (fun x i u => Host.scatterAdd scatter_S100000x128_S1600000x1_S1600000x128_1_0_0_1 x i u),
    StableHlo.unary main_v8 main_v35 (broadcastInDim S100000x128 ![0, 1] bcast_S100000x1_S100000x128_0_1),
    StableHlo.binary main_v34 main_v35 main_v36 mulf ]

/-- Layer 1: the three feature blocks side by side, times the weight, plus the bias, clipped below at zero. -/
def comb1Ops : List (HloOp τ sig (Elt F)) :=
  [ StableHlo.nary ![main_v0, main_v22, main_v36] main_v37 (fun u => concatenate S100000x384 1 [⟨S100000x128, u 0⟩, ⟨S100000x128, u 1⟩, ⟨S100000x128, u 2⟩] concatenates_S100000x128_S100000x128_S100000x128_S100000x384_d1),
    StableHlo.binary main_v37 main_arg1 main_v38 (fun l r => Host.dotGeneral dot_S100000x384_S384x64_S100000x64_1_0_0_1_n_n none l r),
    StableHlo.unary main_arg2 main_v39 (broadcastInDim S1x64 ![1] bcast_S64_S1x64_1),
    StableHlo.unary main_v39 main_v40 (broadcastInDim S100000x64 ![0, 1] bcast_S1x64_S100000x64_0_1),
    StableHlo.binary main_v38 main_v40 main_v41 addf,
    StableHlo.nullary main_call2_cst (constant S_ .f32 0x00000000#32),
    StableHlo.unary main_call2_cst main_call2_v0 (broadcastInDim S100000x64 ![] bcast_S_S100000x64),
    StableHlo.binary main_v41 main_call2_v0 main_v42 maximumf ]

/-- Layer 2's first propagation step (width 64). -/
def hop3Ops : List (HloOp τ sig (Elt F)) :=
  [ StableHlo.unary main_v8 main_v43 (broadcastInDim S100000x64 ![0, 1] bcast_S100000x1_S100000x64_0_1),
    StableHlo.binary main_v42 main_v43 main_v44 mulf,
    StableHlo.nullary main_c_8 (constantI S_ 32 0#32),
    StableHlo.unary main_c_8 main_v45 (broadcastInDim S1600000 ![] bcast_S_S1600000),
    StableHlo.binary main_arg9 main_v45 main_v46 (cmpi .slt),
    StableHlo.nullary main_c_9 (constantI S_ 32 100000#32),
    StableHlo.unary main_c_9 main_v47 (broadcastInDim S1600000 ![] bcast_S_S1600000),
    StableHlo.binary main_arg9 main_v47 main_v48 addi,
    StableHlo.ternary main_v46 main_v48 main_arg9 main_v49 select,
    StableHlo.unary main_v49 main_v50 (broadcastInDim S1600000x1 ![0] bcast_S1600000_S1600000x1_0),
    StableHlo.binary main_v44 main_v50 main_v51 (fun x i => Host.gather gather_S100000x64_S1600000x1_S1600000x64_1_0_n_n_0_1_164 x i),
    StableHlo.nullary main_cst_10 (constant S_ .f32 0x00000000#32),
    StableHlo.unary main_cst_10 main_v52 (broadcastInDim S100000x64 ![] bcast_S_S100000x64),
    StableHlo.unary main_arg10 main_v53 (broadcastInDim S1600000x1 ![0] bcast_S1600000_S1600000x1_0),
    StableHlo.ternary main_v52 main_v53 main_v51 main_v54 (fun x i u => Host.scatterAdd scatter_S100000x64_S1600000x1_S1600000x64_1_0_0_1 x i u),
    StableHlo.unary main_v8 main_v55 (broadcastInDim S100000x64 ![0, 1] bcast_S100000x1_S100000x64_0_1),
    StableHlo.binary main_v54 main_v55 main_v56 mulf ]

/-- Layer 2's second step. -/
def hop4Ops : List (HloOp τ sig (Elt F)) :=
  [ StableHlo.unary main_v8 main_v57 (broadcastInDim S100000x64 ![0, 1] bcast_S100000x1_S100000x64_0_1),
    StableHlo.binary main_v56 main_v57 main_v58 mulf,
    StableHlo.nullary main_c_11 (constantI S_ 32 0#32),
    StableHlo.unary main_c_11 main_v59 (broadcastInDim S1600000 ![] bcast_S_S1600000),
    StableHlo.binary main_arg9 main_v59 main_v60 (cmpi .slt),
    StableHlo.nullary main_c_12 (constantI S_ 32 100000#32),
    StableHlo.unary main_c_12 main_v61 (broadcastInDim S1600000 ![] bcast_S_S1600000),
    StableHlo.binary main_arg9 main_v61 main_v62 addi,
    StableHlo.ternary main_v60 main_v62 main_arg9 main_v63 select,
    StableHlo.unary main_v63 main_v64 (broadcastInDim S1600000x1 ![0] bcast_S1600000_S1600000x1_0),
    StableHlo.binary main_v58 main_v64 main_v65 (fun x i => Host.gather gather_S100000x64_S1600000x1_S1600000x64_1_0_n_n_0_1_164 x i),
    StableHlo.nullary main_cst_13 (constant S_ .f32 0x00000000#32),
    StableHlo.unary main_cst_13 main_v66 (broadcastInDim S100000x64 ![] bcast_S_S100000x64),
    StableHlo.unary main_arg10 main_v67 (broadcastInDim S1600000x1 ![0] bcast_S1600000_S1600000x1_0),
    StableHlo.ternary main_v66 main_v67 main_v65 main_v68 (fun x i u => Host.scatterAdd scatter_S100000x64_S1600000x1_S1600000x64_1_0_0_1 x i u),
    StableHlo.unary main_v8 main_v69 (broadcastInDim S100000x64 ![0, 1] bcast_S100000x1_S100000x64_0_1),
    StableHlo.binary main_v68 main_v69 main_v70 mulf ]

/-- Layer 2's affine map and clip. -/
def comb2Ops : List (HloOp τ sig (Elt F)) :=
  [ StableHlo.nary ![main_v42, main_v56, main_v70] main_v71 (fun u => concatenate S100000x192 1 [⟨S100000x64, u 0⟩, ⟨S100000x64, u 1⟩, ⟨S100000x64, u 2⟩] concatenates_S100000x64_S100000x64_S100000x64_S100000x192_d1),
    StableHlo.binary main_v71 main_arg3 main_v72 (fun l r => Host.dotGeneral dot_S100000x192_S192x64_S100000x64_1_0_0_1_n_n none l r),
    StableHlo.unary main_arg4 main_v73 (broadcastInDim S1x64 ![1] bcast_S64_S1x64_1),
    StableHlo.unary main_v73 main_v74 (broadcastInDim S100000x64 ![0, 1] bcast_S1x64_S100000x64_0_1),
    StableHlo.binary main_v72 main_v74 main_v75 addf,
    StableHlo.nullary main_call3_cst (constant S_ .f32 0x00000000#32),
    StableHlo.unary main_call3_cst main_call3_v0 (broadcastInDim S100000x64 ![] bcast_S_S100000x64),
    StableHlo.binary main_v75 main_call3_v0 main_v76 maximumf ]

/-- Layer 3's first step. -/
def hop5Ops : List (HloOp τ sig (Elt F)) :=
  [ StableHlo.unary main_v8 main_v77 (broadcastInDim S100000x64 ![0, 1] bcast_S100000x1_S100000x64_0_1),
    StableHlo.binary main_v76 main_v77 main_v78 mulf,
    StableHlo.nullary main_c_14 (constantI S_ 32 0#32),
    StableHlo.unary main_c_14 main_v79 (broadcastInDim S1600000 ![] bcast_S_S1600000),
    StableHlo.binary main_arg9 main_v79 main_v80 (cmpi .slt),
    StableHlo.nullary main_c_15 (constantI S_ 32 100000#32),
    StableHlo.unary main_c_15 main_v81 (broadcastInDim S1600000 ![] bcast_S_S1600000),
    StableHlo.binary main_arg9 main_v81 main_v82 addi,
    StableHlo.ternary main_v80 main_v82 main_arg9 main_v83 select,
    StableHlo.unary main_v83 main_v84 (broadcastInDim S1600000x1 ![0] bcast_S1600000_S1600000x1_0),
    StableHlo.binary main_v78 main_v84 main_v85 (fun x i => Host.gather gather_S100000x64_S1600000x1_S1600000x64_1_0_n_n_0_1_164 x i),
    StableHlo.nullary main_cst_16 (constant S_ .f32 0x00000000#32),
    StableHlo.unary main_cst_16 main_v86 (broadcastInDim S100000x64 ![] bcast_S_S100000x64),
    StableHlo.unary main_arg10 main_v87 (broadcastInDim S1600000x1 ![0] bcast_S1600000_S1600000x1_0),
    StableHlo.ternary main_v86 main_v87 main_v85 main_v88 (fun x i u => Host.scatterAdd scatter_S100000x64_S1600000x1_S1600000x64_1_0_0_1 x i u),
    StableHlo.unary main_v8 main_v89 (broadcastInDim S100000x64 ![0, 1] bcast_S100000x1_S100000x64_0_1),
    StableHlo.binary main_v88 main_v89 main_v90 mulf ]

/-- Layer 3's second step. -/
def hop6Ops : List (HloOp τ sig (Elt F)) :=
  [ StableHlo.unary main_v8 main_v91 (broadcastInDim S100000x64 ![0, 1] bcast_S100000x1_S100000x64_0_1),
    StableHlo.binary main_v90 main_v91 main_v92 mulf,
    StableHlo.nullary main_c_17 (constantI S_ 32 0#32),
    StableHlo.unary main_c_17 main_v93 (broadcastInDim S1600000 ![] bcast_S_S1600000),
    StableHlo.binary main_arg9 main_v93 main_v94 (cmpi .slt),
    StableHlo.nullary main_c_18 (constantI S_ 32 100000#32),
    StableHlo.unary main_c_18 main_v95 (broadcastInDim S1600000 ![] bcast_S_S1600000),
    StableHlo.binary main_arg9 main_v95 main_v96 addi,
    StableHlo.ternary main_v94 main_v96 main_arg9 main_v97 select,
    StableHlo.unary main_v97 main_v98 (broadcastInDim S1600000x1 ![0] bcast_S1600000_S1600000x1_0),
    StableHlo.binary main_v92 main_v98 main_v99 (fun x i => Host.gather gather_S100000x64_S1600000x1_S1600000x64_1_0_n_n_0_1_164 x i),
    StableHlo.nullary main_cst_19 (constant S_ .f32 0x00000000#32),
    StableHlo.unary main_cst_19 main_v100 (broadcastInDim S100000x64 ![] bcast_S_S100000x64),
    StableHlo.unary main_arg10 main_v101 (broadcastInDim S1600000x1 ![0] bcast_S1600000_S1600000x1_0),
    StableHlo.ternary main_v100 main_v101 main_v99 main_v102 (fun x i u => Host.scatterAdd scatter_S100000x64_S1600000x1_S1600000x64_1_0_0_1 x i u),
    StableHlo.unary main_v8 main_v103 (broadcastInDim S100000x64 ![0, 1] bcast_S100000x1_S100000x64_0_1),
    StableHlo.binary main_v102 main_v103 main_v104 mulf ]

/-- Layer 3's affine map and clip. -/
def comb3Ops : List (HloOp τ sig (Elt F)) :=
  [ StableHlo.nary ![main_v76, main_v90, main_v104] main_v105 (fun u => concatenate S100000x192 1 [⟨S100000x64, u 0⟩, ⟨S100000x64, u 1⟩, ⟨S100000x64, u 2⟩] concatenates_S100000x64_S100000x64_S100000x64_S100000x192_d1),
    StableHlo.binary main_v105 main_arg5 main_v106 (fun l r => Host.dotGeneral dot_S100000x192_S192x64_S100000x64_1_0_0_1_n_n none l r),
    StableHlo.unary main_arg6 main_v107 (broadcastInDim S1x64 ![1] bcast_S64_S1x64_1),
    StableHlo.unary main_v107 main_v108 (broadcastInDim S100000x64 ![0, 1] bcast_S1x64_S100000x64_0_1),
    StableHlo.binary main_v106 main_v108 main_v109 addf,
    StableHlo.nullary main_call4_cst (constant S_ .f32 0x00000000#32),
    StableHlo.unary main_call4_cst main_call4_v0 (broadcastInDim S100000x64 ![] bcast_S_S100000x64),
    StableHlo.binary main_v109 main_call4_v0 main_v110 maximumf ]

/-- The node features summed per graph id. -/
def poolOps : List (HloOp τ sig (Elt F)) :=
  [ StableHlo.nullary main_cst_20 (constant S_ .f32 0x00000000#32),
    StableHlo.unary main_cst_20 main_v111 (broadcastInDim S64x64 ![] bcast_S_S64x64),
    StableHlo.unary main_arg11 main_v112 (broadcastInDim S100000x1 ![0] bcast_S100000_S100000x1_0),
    StableHlo.ternary main_v111 main_v112 main_v110 main_v113 (fun x i u => Host.scatterAdd scatter_S64x64_S100000x1_S100000x64_1_0_0_1 x i u) ]

/-- The sums divided by the node counts clipped below at one, times the last weight, plus the last bias. -/
def tailOps : List (HloOp τ sig (Elt F)) :=
  [ StableHlo.nullary main_cst_21 (constant S_ .f32 0x3F800000#32),
    StableHlo.unary main_cst_21 main_v114 (broadcastInDim S100000 ![] bcast_S_S100000),
    StableHlo.nullary main_cst_22 (constant S_ .f32 0x00000000#32),
    StableHlo.unary main_cst_22 main_v115 (broadcastInDim S64 ![] bcast_S_S64),
    StableHlo.unary main_arg11 main_v116 (broadcastInDim S100000x1 ![0] bcast_S100000_S100000x1_0),
    StableHlo.ternary main_v115 main_v116 main_v114 main_v117 (fun x i u => Host.scatterAdd scatter_S64_S100000x1_S100000_n_0_0_1 x i u),
    StableHlo.nullary main_cst_23 (constant S_ .f32 0x3F800000#32),
    StableHlo.unary main_cst_23 main_call5_v0 id,
    StableHlo.unary main_call5_v0 main_call5_v1 (broadcastInDim S64 ![] bcast_S_S64),
    StableHlo.binary main_call5_v1 main_v117 main_v118 maximumf,
    StableHlo.unary main_v118 main_v119 (broadcastInDim S64x1 ![0] bcast_S64_S64x1_0),
    StableHlo.unary main_v119 main_v120 (broadcastInDim S64x64 ![0, 1] bcast_S64x1_S64x64_0_1),
    StableHlo.binary main_v113 main_v120 main_v121 Host.divf,
    StableHlo.binary main_v121 main_arg7 main_v122 (fun l r => Host.dotGeneral dot_S64x64_S64x1_S64x1_1_0_0_1_n_n none l r),
    StableHlo.unary main_arg8 main_v123 (broadcastInDim S1x1 ![1] bcast_S1_S1x1_1),
    StableHlo.unary main_v123 main_v124 (broadcastInDim S64x1 ![0, 1] bcast_S1x1_S64x1_0_1),
    StableHlo.binary main_v122 main_v124 main_v125 addf ]

/-- @main's operations in program order, grouped by the function each group computes. -/
def ops : List (HloOp τ sig (Elt F)) :=
  nanOps ++ (normOps ++ (hop1Ops ++ (hop2Ops ++ (comb1Ops ++ (hop3Ops ++ (hop4Ops ++ (comb2Ops ++ (hop5Ops ++ (hop6Ops ++ (comb3Ops ++ (poolOps ++ (tailOps))))))))))))

variable (V : Valuation τ sig (Elt F)) {r : Ref sig .tc}

abbrev nanW : List (Ref sig .tc) := [main_call0_v0, main_call0_cst, main_call0_call0_v0, main_call0_v1, main_call0_cst_0, main_call0_v2, main_call0_v3, main_call0_cst_1, main_call0_call1_v0, main_call0_v4, main_call0_cst_2, main_call0_v5, main_call0_v6, main_call0_cst_3, main_call0_call2_v0, main_v0]
theorem nan_keep (h : r ∉ nanW) : after nanOps V (no_index (Proc.devRef .tc r)) = V (Proc.devRef .tc r) :=
  after_keep nanW V h

abbrev normW : List (Ref sig .tc) := [main_cst, main_v1, main_cst_0, main_v2, main_v3, main_v4, main_cst_1, main_call1_v0, main_call1_v1, main_v5, main_cst_2, main_v6, main_v7, main_v8]
theorem norm_keep (h : r ∉ normW) : after normOps V (no_index (Proc.devRef .tc r)) = V (Proc.devRef .tc r) :=
  after_keep normW V h

abbrev hop1W : List (Ref sig .tc) := [main_v9, main_v10, main_c, main_v11, main_v12, main_c_3, main_v13, main_v14, main_v15, main_v16, main_v17, main_cst_4, main_v18, main_v19, main_v20, main_v21, main_v22]
theorem hop1_keep (h : r ∉ hop1W) : after hop1Ops V (no_index (Proc.devRef .tc r)) = V (Proc.devRef .tc r) :=
  after_keep hop1W V h

abbrev hop2W : List (Ref sig .tc) := [main_v23, main_v24, main_c_5, main_v25, main_v26, main_c_6, main_v27, main_v28, main_v29, main_v30, main_v31, main_cst_7, main_v32, main_v33, main_v34, main_v35, main_v36]
theorem hop2_keep (h : r ∉ hop2W) : after hop2Ops V (no_index (Proc.devRef .tc r)) = V (Proc.devRef .tc r) :=
  after_keep hop2W V h

abbrev comb1W : List (Ref sig .tc) := [main_v37, main_v38, main_v39, main_v40, main_v41, main_call2_cst, main_call2_v0, main_v42]
theorem comb1_keep (h : r ∉ comb1W) : after comb1Ops V (no_index (Proc.devRef .tc r)) = V (Proc.devRef .tc r) :=
  after_keep comb1W V h

abbrev hop3W : List (Ref sig .tc) := [main_v43, main_v44, main_c_8, main_v45, main_v46, main_c_9, main_v47, main_v48, main_v49, main_v50, main_v51, main_cst_10, main_v52, main_v53, main_v54, main_v55, main_v56]
theorem hop3_keep (h : r ∉ hop3W) : after hop3Ops V (no_index (Proc.devRef .tc r)) = V (Proc.devRef .tc r) :=
  after_keep hop3W V h

abbrev hop4W : List (Ref sig .tc) := [main_v57, main_v58, main_c_11, main_v59, main_v60, main_c_12, main_v61, main_v62, main_v63, main_v64, main_v65, main_cst_13, main_v66, main_v67, main_v68, main_v69, main_v70]
theorem hop4_keep (h : r ∉ hop4W) : after hop4Ops V (no_index (Proc.devRef .tc r)) = V (Proc.devRef .tc r) :=
  after_keep hop4W V h

abbrev comb2W : List (Ref sig .tc) := [main_v71, main_v72, main_v73, main_v74, main_v75, main_call3_cst, main_call3_v0, main_v76]
theorem comb2_keep (h : r ∉ comb2W) : after comb2Ops V (no_index (Proc.devRef .tc r)) = V (Proc.devRef .tc r) :=
  after_keep comb2W V h

abbrev hop5W : List (Ref sig .tc) := [main_v77, main_v78, main_c_14, main_v79, main_v80, main_c_15, main_v81, main_v82, main_v83, main_v84, main_v85, main_cst_16, main_v86, main_v87, main_v88, main_v89, main_v90]
theorem hop5_keep (h : r ∉ hop5W) : after hop5Ops V (no_index (Proc.devRef .tc r)) = V (Proc.devRef .tc r) :=
  after_keep hop5W V h

abbrev hop6W : List (Ref sig .tc) := [main_v91, main_v92, main_c_17, main_v93, main_v94, main_c_18, main_v95, main_v96, main_v97, main_v98, main_v99, main_cst_19, main_v100, main_v101, main_v102, main_v103, main_v104]
theorem hop6_keep (h : r ∉ hop6W) : after hop6Ops V (no_index (Proc.devRef .tc r)) = V (Proc.devRef .tc r) :=
  after_keep hop6W V h

abbrev comb3W : List (Ref sig .tc) := [main_v105, main_v106, main_v107, main_v108, main_v109, main_call4_cst, main_call4_v0, main_v110]
theorem comb3_keep (h : r ∉ comb3W) : after comb3Ops V (no_index (Proc.devRef .tc r)) = V (Proc.devRef .tc r) :=
  after_keep comb3W V h

abbrev poolW : List (Ref sig .tc) := [main_cst_20, main_v111, main_v112, main_v113]
theorem pool_keep (h : r ∉ poolW) : after poolOps V (no_index (Proc.devRef .tc r)) = V (Proc.devRef .tc r) :=
  after_keep poolW V h

abbrev tailW : List (Ref sig .tc) := [main_cst_21, main_v114, main_cst_22, main_v115, main_v116, main_v117, main_cst_23, main_call5_v0, main_call5_v1, main_v118, main_v119, main_v120, main_v121, main_v122, main_v123, main_v124, main_v125]
theorem tail_keep (h : r ∉ tailW) : after tailOps V (no_index (Proc.devRef .tc r)) = V (Proc.devRef .tc r) :=
  after_keep tailW V h

end Cert.ReferenceIdeal.Hand

end
-- ==== Proof.RI.Run.lean ====
import proofs.«408660_j24927990186433_1_alg».proof.Proof.RI.Ops
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main, its calls inlined and its parts in a row, is one line of operations. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' constructor
  all_goals simp only [List.Forall, nullary_bufs_sub, unary_bufs_sub, binary_bufs_sub, ternary_bufs_sub, nary_bufs_sub]

theorem ops_fresh : (ops : List (HloOp τ sig (Elt F))).Forall fun op => op.fresh = ∅ := by
  repeat' constructor

theorem ops_keep (V : Valuation τ sig (Elt F)) {r : Ref sig .tc}
    (h : r ∉ nanW ++ normW ++ hop1W ++ hop2W ++ comb1W ++ hop3W ++ hop4W ++ comb2W ++ hop5W ++ hop6W ++ comb3W ++ poolW ++ tailW) :
    after ops V (Proc.devRef .tc r) = V (Proc.devRef .tc r) := after_keep _ V h

/-- @main is one line of operations that allocate nothing and write no argument: the library's run of such a line gives both the frame and the result. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v125) = StableHlo.after ops (fun b => m (c, b)) (Proc.devRef .tc main_v125)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => by
      refine ⟨h c _, ?_, ?_, ?_, ?_, ?_, ?_, ?_, ?_, ?_, ?_, ?_, ?_⟩ <;> exact (h c _).trans (ops_keep _ (by decide)))
    (run_seq scopedRefs_eq scopedSems_eq defs main (fun _ => ops) main_eq (fun _ => ops_sub) m ρ
      fun _ => List.forall_iff_forall_mem.mp ops_fresh)

end Cert.ReferenceIdeal.Hand

end
-- ==== Proof.RI.Read.lean ====
import proofs.«408660_j24927990186433_1_alg».proof.Proof.RI.Run
import proofs.«408660_j24927990186433_1_alg».proof.Proof.Spec
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

theorem nan_read :
    after nanOps W (no_index (Proc.devRef .tc main_v0))
      = Spec.nanToNum (W (Proc.devRef .tc main_arg0)) := by
  unfold nanOps
  after_results_simp
  rfl

theorem norm_read :
    after normOps W (no_index (Proc.devRef .tc main_v8))
      = Spec.normCol (W (Proc.devRef .tc main_arg10)) := by
  unfold normOps
  after_results_simp
  rfl

theorem hop1_read :
    after hop1Ops W (no_index (Proc.devRef .tc main_v22))
      = Spec.hop128 (W (Proc.devRef .tc main_v8)) (W (Proc.devRef .tc main_arg9)) (W (Proc.devRef .tc main_arg10)) (W (Proc.devRef .tc main_v0)) := by
  unfold hop1Ops
  after_results_simp
  rfl

theorem hop2_read :
    after hop2Ops W (no_index (Proc.devRef .tc main_v36))
      = Spec.hop128 (W (Proc.devRef .tc main_v8)) (W (Proc.devRef .tc main_arg9)) (W (Proc.devRef .tc main_arg10)) (W (Proc.devRef .tc main_v22)) := by
  unfold hop2Ops
  after_results_simp
  rfl

theorem comb1_read :
    after comb1Ops W (no_index (Proc.devRef .tc main_v42))
      = Spec.combRef128 (W (Proc.devRef .tc main_v0)) (W (Proc.devRef .tc main_v22)) (W (Proc.devRef .tc main_v36)) (W (Proc.devRef .tc main_arg1)) (W (Proc.devRef .tc main_arg2)) := by
  unfold comb1Ops
  after_results_simp
  rfl

theorem hop3_read :
    after hop3Ops W (no_index (Proc.devRef .tc main_v56))
      = Spec.hop64 (W (Proc.devRef .tc main_v8)) (W (Proc.devRef .tc main_arg9)) (W (Proc.devRef .tc main_arg10)) (W (Proc.devRef .tc main_v42)) := by
  unfold hop3Ops
  after_results_simp
  rfl

theorem hop4_read :
    after hop4Ops W (no_index (Proc.devRef .tc main_v70))
      = Spec.hop64 (W (Proc.devRef .tc main_v8)) (W (Proc.devRef .tc main_arg9)) (W (Proc.devRef .tc main_arg10)) (W (Proc.devRef .tc main_v56)) := by
  unfold hop4Ops
  after_results_simp
  rfl

theorem comb2_read :
    after comb2Ops W (no_index (Proc.devRef .tc main_v76))
      = Spec.combRef64 (W (Proc.devRef .tc main_v42)) (W (Proc.devRef .tc main_v56)) (W (Proc.devRef .tc main_v70)) (W (Proc.devRef .tc main_arg3)) (W (Proc.devRef .tc main_arg4)) := by
  unfold comb2Ops
  after_results_simp
  rfl

theorem hop5_read :
    after hop5Ops W (no_index (Proc.devRef .tc main_v90))
      = Spec.hop64 (W (Proc.devRef .tc main_v8)) (W (Proc.devRef .tc main_arg9)) (W (Proc.devRef .tc main_arg10)) (W (Proc.devRef .tc main_v76)) := by
  unfold hop5Ops
  after_results_simp
  rfl

theorem hop6_read :
    after hop6Ops W (no_index (Proc.devRef .tc main_v104))
      = Spec.hop64 (W (Proc.devRef .tc main_v8)) (W (Proc.devRef .tc main_arg9)) (W (Proc.devRef .tc main_arg10)) (W (Proc.devRef .tc main_v90)) := by
  unfold hop6Ops
  after_results_simp
  rfl

theorem comb3_read :
    after comb3Ops W (no_index (Proc.devRef .tc main_v110))
      = Spec.combRef64 (W (Proc.devRef .tc main_v76)) (W (Proc.devRef .tc main_v90)) (W (Proc.devRef .tc main_v104)) (W (Proc.devRef .tc main_arg5)) (W (Proc.devRef .tc main_arg6)) := by
  unfold comb3Ops
  after_results_simp
  rfl

theorem pool_read :
    after poolOps W (no_index (Proc.devRef .tc main_v113))
      = Spec.poolRef (W (Proc.devRef .tc main_v110)) (W (Proc.devRef .tc main_arg11)) := by
  unfold poolOps
  after_results_simp
  rfl

theorem tail_read :
    after tailOps W (no_index (Proc.devRef .tc main_v125))
      = Spec.tail (W (Proc.devRef .tc main_v113)) (W (Proc.devRef .tc main_arg11)) (W (Proc.devRef .tc main_arg7)) (W (Proc.devRef .tc main_arg8)) := by
  unfold tailOps
  after_results_simp
  rfl

/-- Read back stretch by stretch, the result buffer holds the specification function of the arguments. -/
theorem result_eq (m : (ℓ : Loc nD τ sig) → Buf (Elt Ideal) ℓ) (c : Dev nD) :
    StableHlo.after (ops (F := Ideal)) (fun b => m (c, b)) (Proc.devRef .tc main_v125)
      = Spec.refFn (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11)) := by
  simp (disch := decide) only [ops, after_append, nan_read, norm_read, hop1_read, hop2_read, comb1_read, hop3_read, hop4_read, comb2_read, hop5_read, hop6_read, comb3_read, pool_read, tail_read,
    nan_keep, norm_keep, hop1_keep, hop2_keep, comb1_keep, hop3_keep, hop4_keep, comb2_keep, hop5_keep, hop6_keep, comb3_keep, pool_keep, tail_keep]
  rfl

end Cert.ReferenceIdeal.Hand

end
-- ==== Proof.LibGraphRead.lean ====
import Idealize.ShloMosaic.PureOps.Ideal
import Idealize.ShloMosaic.Lib.ValueIdx

noncomputable section

namespace Cert.GcnLib

open Idealize.ShloMosaic Idealize.ShloMosaic.ValueIdx

/-- The landing index is `i` iff start plus window offset is `i` on each axis: the range check then holds by itself. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · next h =>
    simp only [Option.some.injEq, funext_iff, Fin.ext_iff]
    exact forall_congr' fun a => by have := (h a).1; omega
  · next h =>
    exact ⟨nofun, fun hall => (h fun a => by rw [hall a]; exact ⟨Int.natCast_nonneg _, by exact_mod_cast (i a).isLt⟩).elim⟩

/-- Entry `(v, j)` after scatter-adding rows by an index column: the old entry plus `u e j` over the rows `e` whose signed index is `v`. -/
theorem scatterAdd_rows_apply {N n C : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ 32) (u : (⟨2, ![n, C]⟩ : Shape).Idx → EReal)
    (v : Fin N) (j : Fin C) :
    Ideal.hostScatterAdd d x idx u (ix2 v j)
      = x (ix2 v j) + ∑ e ∈ Finset.univ.filter (fun e : Fin n => (idx (ix2 e 0)).toInt = (v.val : Int)), u (ix2 e j) := by
  obtain ⟨_, _, _, _, wf⟩ := d
  subst huw hiw hsd hiv
  have hs0 : ∀ t : (⟨2, ![n, C]⟩ : Shape).Idx, (ScatterDims.mk [1] [0] [0] 1 wf).start t idx 0 = (idx (ix2 (t 0) 0)).toInt := fun t => by
    unfold ScatterDims.start
    rw [dif_pos (List.mem_singleton.2 rfl)]
    exact congrArg (fun k => (idx k).toInt) (funext fun b => match b with | ⟨0, _⟩ => rfl | ⟨1, _⟩ => rfl)
  have hs1 : ∀ t : (⟨2, ![n, C]⟩ : Shape).Idx, (ScatterDims.mk [1] [0] [0] 1 wf).start t idx 1 = 0 := fun t => rfl
  have hw0 : ∀ t : (⟨2, ![n, C]⟩ : Shape).Idx, (ScatterDims.mk [1] [0] [0] 1 wf).window t 0 = 0 := fun t => rfl
  have hw1 : ∀ t : (⟨2, ![n, C]⟩ : Shape).Idx, (ScatterDims.mk [1] [0] [0] 1 wf).window t 1 = (t 1).val := fun t => rfl
  have hm : ∀ t : (⟨2, ![n, C]⟩ : Shape).Idx,
      t ∈ Finset.univ.filter (fun t => (ScatterDims.mk [1] [0] [0] 1 wf).resultIdx? t idx = some (ix2 v j))
        ↔ (idx (ix2 (t 0) 0)).toInt = (v.val : Int) ∧ t 1 = j := fun t => by
    rw [Finset.mem_filter, resultIdx?_eq_some_iff, Fin.forall_fin_two, hs0, hs1, hw0, hw1, Nat.cast_zero, add_zero, zero_add,
      Nat.cast_inj]
    exact (and_iff_right (Finset.mem_univ t)).trans (and_congr Iff.rfl Fin.ext_iff.symm)
  have hm' : ∀ e : Fin n, e ∈ Finset.univ.filter (fun e : Fin n => (idx (ix2 e 0)).toInt = (v.val : Int))
      ↔ (idx (ix2 e 0)).toInt = (v.val : Int) := fun e => Finset.mem_filter.trans (and_iff_right (Finset.mem_univ e))
  refine congrArg (x (ix2 v j) + ·) (Finset.sum_bij' (fun t _ => t 0) (fun e _ => ix2 e j)
    (fun t h => (hm' _).2 ((hm t).1 h).1) (fun e h => (hm _).2 ⟨(hm' e).1 h, rfl⟩) (fun t h => ?_) (fun _ _ => rfl) (fun t h => ?_))
  · rw [← ((hm t).1 h).2]; exact (eq_ix2 t).symm
  · rw [← ((hm t).1 h).2]; exact congrArg u (eq_ix2 t)

end Cert.GcnLib

end
-- ==== Proof.Alg.lean ====
import Idealize.ShloMosaic.Lib.IdealHost
import Idealize.ShloMosaic.Lib.StackMember
import Mathlib.Algebra.BigOperators.Fin
import proofs.«408660_j24927990186433_1_alg».proof.Proof.LibGraphRead
import proofs.«408660_j24927990186433_1_alg».proof.Proof.Spec

noncomputable section

namespace Cert.Spec

open Idealize.ShloMosaic Idealize.ShloMosaic.ValueIdx Idealize.ShloMosaic.StackMember
open scoped BigOperators

/-- One contraction over three blocks side by side is the blocks' contractions with the weight's three row bands, added in order. -/
theorem dot_cat3 {R n N m : ℕ} (hN : N = n + n + n) (f0 f1 f2 : (⟨2, ![R, n]⟩ : Shape).Idx → EReal)
    (W : (⟨2, ![N, m]⟩ : Shape).Idx → EReal)
    (hc : Shape.Concatenates [⟨2, ![R, n]⟩, ⟨2, ![R, n]⟩, ⟨2, ![R, n]⟩] ⟨2, ![R, N]⟩ 1)
    (h0 : (⟨2, ![N, m]⟩ : Shape).Slices ![0, 0] ⟨2, ![n, m]⟩) (h1 : (⟨2, ![N, m]⟩ : Shape).Slices ![n, 0] ⟨2, ![n, m]⟩)
    (h2 : (⟨2, ![N, m]⟩ : Shape).Slices ![n + n, 0] ⟨2, ![n, m]⟩) (r : Fin R) (c : Fin m) :
    ∑ k : Fin N, concatenate ⟨2, ![R, N]⟩ 1 [⟨_, f0⟩, ⟨_, f1⟩, ⟨_, f2⟩] hc (ix2 r k) * W (ix2 k c)
      = ((∑ k : Fin n, f0 (ix2 r k) * extractStridedSlice ⟨2, ![n, m]⟩ ![0, 0] W h0 (ix2 k c))
        + ∑ k : Fin n, f1 (ix2 r k) * extractStridedSlice ⟨2, ![n, m]⟩ ![n, 0] W h1 (ix2 k c))
        + ∑ k : Fin n, f2 (ix2 r k) * extractStridedSlice ⟨2, ![n, m]⟩ ![n + n, 0] W h2 (ix2 k c) := by
  subst hN
  have hi : ∀ (r : Fin R) (k : Fin n) (k' : Fin (n + n + n)) (b : Fin 2), b ≠ 1 →
      ((ix2 r k : (⟨2, ![R, n]⟩ : Shape).Idx) b).val = ((ix2 r k' : (⟨2, ![R, n + n + n]⟩ : Shape).Idx) b).val := fun r k k' b hb =>
    match b, hb with
    | ⟨0, _⟩, _ => rfl
    | ⟨1, _⟩, hb => absurd rfl hb
  have hp := concatenate_apply_piece 1 [⟨⟨2, ![R, n]⟩, f0⟩, ⟨⟨2, ![R, n]⟩, f1⟩, ⟨⟨2, ![R, n]⟩, f2⟩] hc
  rw [Fin.sum_univ_add, Fin.sum_univ_add]
  refine congrArg₂ (· + ·) (congrArg₂ (· + ·) ?_ ?_) ?_ <;> refine Finset.sum_congr rfl fun k _ => congrArg₂ (· * ·) ?_ (Eq.symm ?_)
  · exact hp _ 0 (Nat.zero_lt_succ _) _ f0 rfl rfl 0 rfl (ix2 r k) (hi r k _) (Nat.zero_add _)
  · exact extractStridedSlice_apply _ W _ (ix2 k c) _ fun a => match a with | ⟨0, _⟩ => (Nat.zero_add _).symm | ⟨1, _⟩ => (Nat.zero_add _).symm
  · exact hp _ 1 (Nat.succ_lt_succ (Nat.zero_lt_succ _)) _ f1 rfl rfl n rfl (ix2 r k) (hi r k _) rfl
  · exact extractStridedSlice_apply _ W _ (ix2 k c) _ fun a => match a with | ⟨0, _⟩ => rfl | ⟨1, _⟩ => (Nat.zero_add _).symm
  · exact hp _ 2 (Nat.lt_succ_self _) _ f2 rfl rfl (n + n) rfl (ix2 r k) (hi r k _) rfl
  · exact extractStridedSlice_apply _ W _ (ix2 k c) _ fun a => match a with | ⟨0, _⟩ => rfl | ⟨1, _⟩ => (Nat.zero_add _).symm

/-- Reshaping a vector to one row moves no entry. -/
theorem biasRow_apply {F : FTy → Type} [FloatOps F] (b : FVec F S64 .f32) (c : Fin 64) : biasRow b (ix2 0 c) = b (ix1 c) :=
  shapeCast_apply b _ (ix2 0 c) (ix1 c) (by rw [Shape.rowMajor_val_one, Shape.rowMajor_val_two]; exact (Nat.zero_add _).symm)

/-- A vector broadcast to a row and the row to every row has entry `c` all down column `c`. -/
theorem biasBcast_apply {F : FTy → Type} [FloatOps F] (b : FVec F S64 .f32) (r : Fin 100000) (c : Fin 64) :
    broadcastInDim S100000x64 ![0, 1] bcast_S1x64_S100000x64_0_1 (broadcastInDim S1x64 ![1] bcast_S64_S1x64_1 b) (ix2 r c)
      = b (ix1 c) :=
  (broadcastInDim_oneRow_apply _ _ r c).trans
    (broadcastInDim_apply _ _ b (ix2 0 c) (ix1 c) fun a => match a with | ⟨0, _⟩ => rfl)

/-- Three products, the bias row and the rectifier are the one product of the concatenation, the broadcast bias and the same rectifier. -/
theorem combKer128_eq (f0 f1 f2 : FVec Ideal S100000x128 .f32) (W : FVec Ideal S384x64 .f32) (b : FVec Ideal S64 .f32) :
    combKer128 f0 f1 f2 (sliceA128 W) (sliceB128 W) (sliceC128 W) (biasRow b) = combRef128 (F := Ideal) f0 f1 f2 W b := by
  funext i
  obtain ⟨r, c, rfl⟩ : ∃ r c, i = ix2 r c := ⟨i 0, i 1, eq_ix2 i⟩
  show max (_ + biasRow b (ix2 0 c)) 0 = max (Host.dotGeneral (DotDims.plain 100000 384 64) none _ W (ix2 r c) + _) _
  rw [dotGeneral_plain_apply, biasBcast_apply, broadcastInDim_scalar_apply, biasRow_apply, dot_cat3 (n := 128) rfl]
  exact congrArg (max _) Ideal.ofBits_zero_f32.symm

theorem combKer64_eq (f0 f1 f2 : FVec Ideal S100000x64 .f32) (W : FVec Ideal S192x64 .f32) (b : FVec Ideal S64 .f32) :
    combKer64 f0 f1 f2 (sliceA64 W) (sliceB64 W) (sliceC64 W) (biasRow b) = combRef64 (F := Ideal) f0 f1 f2 W b := by
  funext i
  obtain ⟨r, c, rfl⟩ : ∃ r c, i = ix2 r c := ⟨i 0, i 1, eq_ix2 i⟩
  show max (_ + biasRow b (ix2 0 c)) 0 = max (Host.dotGeneral (DotDims.plain 100000 192 64) none _ W (ix2 r c) + _) _
  rw [dotGeneral_plain_apply, biasBcast_apply, broadcastInDim_scalar_apply, biasRow_apply, dot_cat3 (n := 64) rfl]
  exact congrArg (max _) Ideal.ofBits_zero_f32.symm

/-- For `j < 2^31` only the word `j` itself reads, signed, as `j`. -/
theorem word_eq_ofNat_iff (w : BitVec 32) (j : ℕ) (hj : j < 2 ^ 31) : w = BitVec.ofNat 32 j ↔ w.toInt = (j : Int) := by
  rw [← BitVec.toInt_inj, BitVec.toInt_ofNat', Int.bmod_eq_of_le (by omega) (by omega)]

/-- Summing the rows weighted by the one-hot of their id adds each row at its id: `1 * x = x` and `0 * x = 0` for every extended real. -/
theorem poolKer_eq (h : FVec Ideal S100000x64 .f32) (g : IVec S100000 32) : poolKer h (gidCol g) = poolRef (F := Ideal) h g := by
  funext i
  obtain ⟨v, j, rfl⟩ : ∃ v j, i = ix2 v j := ⟨i 0, i 1, eq_ix2 i⟩
  show ∑ r : Fin 100000, onehot (gidCol g (ix2 r 0)) v * h (ix2 r j)
    = Ideal.hostScatterAdd scatter_S64x64_S100000x1_S100000x64_1_0_0_1 _ _ h (ix2 v j)
  rw [Cert.GcnLib.scatterAdd_rows_apply _ rfl rfl rfl rfl, broadcastInDim_scalar_apply, constant_apply, Ideal.ofBits_zero_f32, zero_add,
    Finset.sum_filter]
  refine Finset.sum_congr rfl fun r _ => ?_
  have hg : gidCol g (ix2 r 0) = broadcastInDim S100000x1 ![0] bcast_S100000_S100000x1_0 g (ix2 r 0) :=
    (shapeCast_apply g _ (ix2 r 0) (ix1 r) (by rw [Shape.rowMajor_val_one, Shape.rowMajor_val_two]; exact (Nat.mul_one _).symm)).trans
      (broadcastInDim_apply _ _ g (ix2 r 0) (ix1 r) fun a => match a with | ⟨0, _⟩ => rfl).symm
  rw [hg, onehot, ite_mul, one_mul, zero_mul]
  exact if_congr (word_eq_ofNat_iff _ _ (by have := v.isLt; omega)) rfl rfl

/-- Layer by layer, and at the pooling, the two networks agree on all extended reals. -/
theorem kerFn_eq_refFn (x : FVec Ideal S100000x128 .f32) (W1 : FVec Ideal S384x64 .f32) (b1 : FVec Ideal S64 .f32)
    (W2 : FVec Ideal S192x64 .f32) (b2 : FVec Ideal S64 .f32) (W3 : FVec Ideal S192x64 .f32) (b3 : FVec Ideal S64 .f32)
    (Wc : FVec Ideal S64x1 .f32) (bc : FVec Ideal S1 .f32) (src dst : IVec S1600000 32) (gid : IVec S100000 32) :
    kerFn x W1 b1 W2 b2 W3 b3 Wc bc src dst gid = refFn x W1 b1 W2 b2 W3 b3 Wc bc src dst gid := by
  unfold kerFn refFn
  rw [combKer128_eq, combKer64_eq, combKer64_eq, poolKer_eq]

end Cert.Spec

end
-- ==== Proof.lean ====
/-
  Three graph-convolution layers and a mean over each graph, computed blockwise against the same network in array
  operations. The two differ in the layer's linear map (three products over the row blocks of the weights against one
  product with their concatenation: one sum over 3d indices split in three) and in the pooling (a one-hot product
  against a scatter-add: 0·x = 0 and 1·x = x). Both hold on all extended reals, so the precondition is not used.
-/
import proofs.«408660_j24927990186433_1_alg».proof.Defs
import proofs.«408660_j24927990186433_1_alg».proof.Proof.Gen.Kernel
import proofs.«408660_j24927990186433_1_alg».proof.Proof.Gen.KernelIdeal
import proofs.«408660_j24927990186433_1_alg».proof.Proof.Gen.ReferenceIdeal
import proofs.«408660_j24927990186433_1_alg».proof.Proof.Gen.Pre_finite_inputs
import proofs.«408660_j24927990186433_1_alg».proof.Proof.K.Segs
import proofs.«408660_j24927990186433_1_alg».proof.Proof.KI.Result
import proofs.«408660_j24927990186433_1_alg».proof.Proof.RI.Read
import proofs.«408660_j24927990186433_1_alg».proof.Proof.Alg

noncomputable section

namespace Cert.Proof

open Idealize.ShloMosaic Idealize.SL.Sem

/-- Each program's run, with the result dropped, is its frame. -/
theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both runs end at one function of the arguments: the blockwise program's specification equals the reference's. -/
theorem algebraic : Cert.algebraic_KernelIdeal_ReferenceIdeal := by
  intro m ρ m' ρ' _ hagree
  refine ⟨fun c => Cert.Spec.kerFn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.result_eq m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Hand.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact (Cert.Spec.kerFn_eq_refFn _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
